-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x32 : Shape := ⟨2, ![64, 32]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x32 : S_.BroadcastsInDim S64x32 (![] : Fin 0 → Fin S64x32.rank)
  reducesTo_S64x32_S_d0_1 : S64x32.ReducesTo [0, 1] S_

variable [Facts]

def fn_part2 {F : FTy → Type} [FloatOps F] (main_arg7 : FVec F S64x32 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  main_v38

def fn_part1 {F : FTy → Type} [FloatOps F] (main_arg4 : FVec F S8192x8192 .f32) (main_arg5 : FVec F S8192x8192 .f32) (main_arg6 : FVec F S8192x64 .f32) (main_arg7 : FVec F S64x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x64 .f32 := Host.absf main_arg6
  let main_cst_10 : FVec F S_ .f32 := constant S_ .f32 0x7F800000#32
  let main_v30 : FVec F S8192x64 .f32 := broadcastInDim S8192x64 ![] bcast_S_S8192x64 main_cst_10
  let main_v31 : IVec S8192x64 1 := cmpf .olt main_v29 main_v30
  let main_c_11 : IVec S_ 1 := constantI S_ 1 1#1
  let main_v32 : IVec S_ 1 := (fun x v => Host.reduce IntOp.andi x v reducesTo_S8192x64_S_d0_1 h_S_) main_v31 main_c_11
  let main_v33 : IVec S_ 1 := andi main_v28 main_v32
  fn_part2 (F := F) main_arg7 main_v33

def fn {F : FTy → Type} [FloatOps F] (main_arg0 : FVec F S8192x8192 .f32) (main_arg1 : FVec F S8192x8192 .f32) (main_arg2 : FVec F S8192x64 .f32) (main_arg3 : FVec F S64x32 .f32) (main_arg4 : FVec F S8192x8192 .f32) (main_arg5 : FVec F S8192x8192 .f32) (main_arg6 : FVec F S8192x64 .f32) (main_arg7 : FVec F S64x32 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_v13 main_v16
-- ==== Kernel.lean ====
abbrev S8192x8192 : Shape := ⟨2, ![8192, 8192]⟩
abbrev S8192x64 : Shape := ⟨2, ![8192, 64]⟩
abbrev S64x32 : Shape := ⟨2, ![64, 32]⟩
abbrev S1024x2048 : Shape := ⟨2, ![1024, 2048]⟩
abbrev S2048x64 : Shape := ⟨2, ![2048, 64]⟩
abbrev S1024x64 : Shape := ⟨2, ![1024, 64]⟩
abbrev S8192x32 : Shape := ⟨2, ![8192, 32]⟩
abbrev S2048x32 : Shape := ⟨2, ![2048, 32]⟩
abbrev S1024x32 : Shape := ⟨2, ![1024, 32]⟩
abbrev S32x8192 : Shape := ⟨2, ![32, 8192]⟩
abbrev S32x2048 : Shape := ⟨2, ![32, 2048]⟩
abbrev S67108864 : Shape := ⟨1, ![67108864]⟩

abbrev nBuf : Space → Nat
  | .hbm => 19
  | .vmem => 57
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x64, .f32⟩
  | .hbm, ⟨3, _⟩ => ⟨S64x32, .f32⟩
  | .hbm, ⟨4, _⟩ => ⟨S8192x8192, .f32⟩
  | .hbm, ⟨5, _⟩ => ⟨S8192x8192, .f32⟩
  | .hbm, ⟨6, _⟩ => ⟨S8192x64, .f32⟩
  | .hbm, ⟨7, _⟩ => ⟨S64x32, .f32⟩
  | .hbm, ⟨8, _⟩ => ⟨S8192x64, .f32⟩
  | .hbm, ⟨9, _⟩ => ⟨S8192x64, .f32⟩
  | .hbm, ⟨10, _⟩ => ⟨S8192x32, .f32⟩
  | .hbm, ⟨11, _⟩ => ⟨S8192x32, .f32⟩
  | .hbm, ⟨12, _⟩ => ⟨S8192x64, .f32⟩
  | .hbm, ⟨13, _⟩ => ⟨S8192x64, .f32⟩
  | .hbm, ⟨14, _⟩ => ⟨S8192x32, .f32⟩
  | .hbm, ⟨15, _⟩ => ⟨S8192x32, .f32⟩
  | .hbm, ⟨16, _⟩ => ⟨S32x8192, .f32⟩
  | .hbm, ⟨17, _⟩ => ⟨S8192x8192, .f32⟩
  | .hbm, ⟨18, _⟩ => ⟨S67108864, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x2048, .f32⟩
  | .local _ .vmem, ⟨8, _⟩ => ⟨S1024x2048, .f32⟩
  | .local _ .vmem, ⟨9, _⟩ => ⟨S2048x64, .f32⟩
  | .local _ .vmem, ⟨10, _⟩ => ⟨S2048x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S8192x64, .f32⟩
  | .local _ .vmem, ⟨15, _⟩ => ⟨S64x32, .f32⟩
  | .local _ .vmem, ⟨16, _⟩ => ⟨S8192x32, .f32⟩
  | .local _ .vmem, ⟨17, _⟩ => ⟨S8192x32, .f32⟩
  | .local _ .vmem, ⟨18, _⟩ => ⟨S1024x2048, .f32⟩
  | .local _ .vmem, ⟨19, _⟩ => ⟨S1024x2048, .f32⟩
  | .local _ .vmem, ⟨20, _⟩ => ⟨S2048x32, .f32⟩
  | .local _ .vmem, ⟨21, _⟩ => ⟨S2048x32, .f32⟩
  | .local _ .vmem, ⟨22, _⟩ => ⟨S1024x32, .f32⟩
  | .local _ .vmem, ⟨23, _⟩ => ⟨S1024x32, .f32⟩
  | .local _ .vmem, ⟨24, _⟩ => ⟨S1024x32, .f32⟩
  | .local _ .vmem, ⟨25, _⟩ => ⟨S1024x2048, .f32⟩
  | .local _ .vmem, ⟨26, _⟩ => ⟨S1024x2048, .f32⟩
  | .local _ .vmem, ⟨27, _⟩ => ⟨S2048x64, .f32⟩
  | .local _ .vmem, ⟨28, _⟩ => ⟨S2048x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x2048, .f32⟩
  | .local _ .vmem, ⟨33, _⟩ => ⟨S1024x2048, .f32⟩
  | .local _ .vmem, ⟨34, _⟩ => ⟨S2048x64, .f32⟩
  | .local _ .vmem, ⟨35, _⟩ => ⟨S2048x64, .f32⟩
  | .local _ .vmem, ⟨36, _⟩ => ⟨S1024x64, .f32⟩
  | .local _ .vmem, ⟨37, _⟩ => ⟨S1024x64, .f32⟩
  | .local _ .vmem, ⟨38, _⟩ => ⟨S1024x64, .f32⟩
  | .local _ .vmem, ⟨39, _⟩ => ⟨S8192x64, .f32⟩
  | .local _ .vmem, ⟨40, _⟩ => ⟨S64x32, .f32⟩
  | .local _ .vmem, ⟨41, _⟩ => ⟨S8192x32, .f32⟩
  | .local _ .vmem, ⟨42, _⟩ => ⟨S8192x32, .f32⟩
  | .local _ .vmem, ⟨43, _⟩ => ⟨S1024x2048, .f32⟩
  | .local _ .vmem, ⟨44, _⟩ => ⟨S1024x2048, .f32⟩
  | .local _ .vmem, ⟨45, _⟩ => ⟨S2048x32, .f32⟩
  | .local _ .vmem, ⟨46, _⟩ => ⟨S2048x32, .f32⟩
  | .local _ .vmem, ⟨47, _⟩ => ⟨S1024x32, .f32⟩
  | .local _ .vmem, ⟨48, _⟩ => ⟨S1024x32, .f32⟩
  | .local _ .vmem, ⟨49, _⟩ => ⟨S1024x32, .f32⟩
  | .local _ .vmem, ⟨50, _⟩ => ⟨S1024x32, .f32⟩
  | .local _ .vmem, ⟨51, _⟩ => ⟨S1024x32, .f32⟩
  | .local _ .vmem, ⟨52, _⟩ => ⟨S32x2048, .f32⟩
  | .local _ .vmem, ⟨53, _⟩ => ⟨S32x2048, .f32⟩
  | .local _ .vmem, ⟨54, _⟩ => ⟨S1024x2048, .f32⟩
  | .local _ .vmem, ⟨55, _⟩ => ⟨S1024x2048, .f32⟩
  | .local _ .vmem, ⟨56, _⟩ => ⟨S1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_scratch0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc8_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem1_0 : DmaSem sig := 34
abbrev cc6_sem2_0 : DmaSem sig := 35
abbrev cc7_sem0_0 : DmaSem sig := 36
abbrev cc7_sem0_1 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem1_1 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S8192x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S8192x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![8, 1, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 1, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 4], ![false, false, false]⟩

def k5_cond2 (i : grid5.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 1, 1], ![false, false, false]⟩

def k6_cond2 (i : grid6.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S8192x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S8192x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![8, 1, 4], ![false, false, false]⟩

def k7_cond2 (i : grid7.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 4, 1], ![false, false, false]⟩

def k8_cond2 (i : grid8.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S32x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x32_S64x32_0_0 : ∀ a, (![0, 0] : Fin 2 → Nat) a + S64x32.size a ≤ S64x32.size a
  h_S64x32 : 0 < S64x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  transposes_S8192x32_S32x8192_1_0 : S8192x32.Transposes [1, 0] S32x8192
  shapeCasts_S1024x2048_S1024x2048 : S1024x2048.ShapeCasts S1024x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  shapeCasts_S8192x8192_S67108864 : S8192x8192.ShapeCasts S67108864
  dot_S1024x2048_S2048x64_S1024x64_1_0_0_1_n_n_wf : DotDims.WF S1024x2048 S2048x64 S1024x64 [1] [0] [0] [1] [] []
  dot_S8192x64_S64x32_S8192x32_1_0_0_1_n_n_wf : DotDims.WF S8192x64 S64x32 S8192x32 [1] [0] [0] [1] [] []
  dot_S1024x2048_S2048x32_S1024x32_1_0_0_1_n_n_wf : DotDims.WF S1024x2048 S2048x32 S1024x32 [1] [0] [0] [1] [] []
  dot_S1024x32_S32x2048_S1024x2048_1_0_0_1_n_n_wf : DotDims.WF S1024x32 S32x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S8192x64.size a
  hwx2_0 : ∀ i : grid2.Coords, EltTy.bits .f32 = 32 ∨ (Rect.block (s := S8192x64) S8192x64.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S8192x32.size a ≤ S8192x32.size a
  hwx2_2 : ∀ i : grid2.Coords, EltTy.bits .f32 = 32 ∨ (Rect.block (s := S8192x32) S8192x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S8192x32.size a
  hwx3_1 : ∀ i : grid3.Coords, EltTy.bits .f32 = 32 ∨ (Rect.block (s := S8192x32) S2048x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x32.size a ≤ S8192x32.size a
  hwx3_2 : ∀ i : grid3.Coords, EltTy.bits .f32 = 32 ∨ (Rect.block (s := S8192x32) S1024x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .f32 = 32 ∨ (Rect.block (s := S8192x8192) S1024x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S8192x64.size a
  hwx4_2 : ∀ i : grid4.Coords, EltTy.bits .f32 = 32 ∨ (Rect.block (s := S8192x64) S1024x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .f32 = 32 ∨ (Rect.block (s := S8192x8192) S1024x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S8192x64.size a
  hwx5_1 : ∀ i : grid5.Coords, EltTy.bits .f32 = 32 ∨ (Rect.block (s := S8192x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S8192x64.size a
  hwx5_2 : ∀ i : grid5.Coords, EltTy.bits .f32 = 32 ∨ (Rect.block (s := S8192x64) S1024x64.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S8192x64.size a
  hwx6_0 : ∀ i : grid6.Coords, EltTy.bits .f32 = 32 ∨ (Rect.block (s := S8192x64) S8192x64.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S8192x32.size a ≤ S8192x32.size a
  hwx6_2 : ∀ i : grid6.Coords, EltTy.bits .f32 = 32 ∨ (Rect.block (s := S8192x32) S8192x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S8192x8192.size a
  hwx7_0 : ∀ i : grid7.Coords, EltTy.bits .f32 = 32 ∨ (Rect.block (s := S8192x8192) S1024x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x32.size a ≤ S8192x32.size a
  hwx7_1 : ∀ i : grid7.Coords, EltTy.bits .f32 = 32 ∨ (Rect.block (s := S8192x32) S2048x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x32.size a ≤ S8192x32.size a
  hwx7_2 : ∀ i : grid7.Coords, EltTy.bits .f32 = 32 ∨ (Rect.block (s := S8192x32) S1024x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x32.size a ≤ S8192x32.size a
  hwx8_0 : ∀ i : grid8.Coords, EltTy.bits .f32 = 32 ∨ (Rect.block (s := S8192x32) S1024x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S32x2048.size a ≤ S32x8192.size a
  hwx8_1 : ∀ i : grid8.Coords, EltTy.bits .f32 = 32 ∨ (Rect.block (s := S32x8192) S32x2048.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x2048.size a ≤ S8192x8192.size a
  hwx8_2 : ∀ i : grid8.Coords, EltTy.bits .f32 = 32 ∨ (Rect.block (s := S8192x8192) S1024x2048.size (cc8_transform_2 i) (hinb8_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x32_S32x2048_S1024x2048_1_0_0_1_n_n : DotDims S1024x32 S32x2048 S1024x2048 where
  lhsContracting := [1]
  rhsContracting := [0]
  lhsNonContracting := [0]
  rhsNonContracting := [1]
  lhsBatch := []
  rhsBatch := []
  wf := dot_S1024x32_S32x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S8192x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x32.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S8192x32.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg4) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg5) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S1024x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v5) S8192x64.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x32.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v6) S8192x32.size cc6_transform_2 reads6_2 true false 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_arg5) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S2048x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S1024x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v3) S1024x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v8) S32x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v9) S1024x2048.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S64x32 : Shape := ⟨2, ![64, 32]⟩
abbrev S_ : Shape := ⟨0, ![]⟩
abbrev S8192x32 : Shape := ⟨2, ![8192, 32]⟩
abbrev S67108864 : Shape := ⟨1, ![67108864]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x64, .f32⟩
  | .hbm, ⟨3, _⟩ => ⟨S64x32, .f32⟩
  | .hbm, ⟨4, _⟩ => ⟨S8192x8192, .f32⟩
  | .hbm, ⟨5, _⟩ => ⟨S8192x8192, .f32⟩
  | .hbm, ⟨6, _⟩ => ⟨S8192x64, .f32⟩
  | .hbm, ⟨7, _⟩ => ⟨S64x32, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S8192x32, .f32⟩
  | .hbm, ⟨14, _⟩ => ⟨S8192x32, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S8192x32, .f32⟩
  | .hbm, ⟨21, _⟩ => ⟨S8192x32, .f32⟩
  | .hbm, ⟨22, _⟩ => ⟨S8192x8192, .f32⟩
  | .hbm, ⟨23, _⟩ => ⟨S67108864, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_cst : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  shapeCasts_S8192x8192_S67108864 : S8192x8192.ShapeCasts S67108864
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []
  dot_S8192x32_S8192x32_S8192x8192_1_1_0_0_n_n_wf : DotDims.WF S8192x32 S8192x32 S8192x8192 [1] [1] [0] [0] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S8192x32_S8192x8192_1_1_0_0_n_n : DotDims S8192x32 S8192x32 S8192x8192 where
  lhsContracting := [1]
  rhsContracting := [1]
  lhsNonContracting := [0]
  rhsNonContracting := [0]
  lhsBatch := []
  rhsBatch := []
  wf := dot_S8192x32_S8192x32_S8192x8192_1_1_0_0_n_n_wf

class Facts : Prop extends Facts₀ where

variable [Facts]
-- ==== Proof.LibLive.lean ====
import Idealize.ShloMosaic.Lib.Pipeline.Dat

namespace Cert.Region

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Pipeline Idealize.ShloMosaic.TcCoe

section Live

variable {nD : Nat} {τ : Topo} {sig : RefSig} {Val : EltTy → Type} {Λ₀ : Idealize.SL.Sem.Labels}
  {Ix : Type} [DecidableEq Ix] {Name : Type} [DecidableEq Name] {U : Type} [URA U] {Lvl : Type}
  {cfg : Cfg sig Λ₀} {c : Dev nD} (dat : Dat τ Val Ix Name U Lvl cfg c)

/-- At a point where a window is not idle, the body leaves its buffer at the contents named for after the point. -/
theorem leavesExact_live (w : Fin cfg.W) (t : Fin cfg.N) (hi : cfg.idle w (cfg.grid.coords t) = false) :
    dat.leavesExact w t = owns c ((cfg.win w).stage (cfg.slots t w)) fullShare (dat.after w t) := by
  unfold Dat.leavesExact; rw [hi]

end Live

noncomputable section Inv

variable {nD : Nat} {τ : Topo} {sig : RefSig} {Val : EltTy → Type}
  {Ix : Type} [DecidableEq Ix] {Name : Type} [DecidableEq Name] {U : Type} [URA U] {Lvl : Type}

local notation "𝕄" => MT nD τ sig Ix Val Name U Lvl

variable (c : Dev nD) {S : Shape} {φ : EltTy} (scM : Memref sig .tc .vmem S φ)

/-- Before the first point the class invariant `A`; before point n + 1 the accumulator at what point n left, the rest riding along. -/
def Inv (A R G : sProp 𝕄) {N : ℕ} (acc : (n : ℕ) → n < N → S.Idx → Val φ) : (n : ℕ) → n ≤ N → sProp 𝕄
  | 0, _ => A
  | n + 1, hn => iprop((owns (c : Thread nD τ) scM fullShare (acc n hn) ∗ R) ∗ G)

theorem Inv_succ (A R G : sProp 𝕄) {N : ℕ} (acc : (n : ℕ) → n < N → S.Idx → Val φ) (n : ℕ) (hn : n < N) :
    Inv c scM A R G acc (n + 1) hn = iprop((owns (c : Thread nD τ) scM fullShare (acc n hn) ∗ R) ∗ G) := rfl

/-- When `A` is the same with the accumulator at anything, the invariant opens at some s: what the point before left, unless this is the first point. -/
theorem Inv_open (A R G : sProp 𝕄) {N : ℕ} (acc : (n : ℕ) → n < N → S.Idx → Val φ)
    (hA : A = iprop(((∃ d, owns (c : Thread nD τ) scM fullShare d) ∗ R) ∗ G)) (n : ℕ) (h : n ≤ N) :
    Inv c scM A R G acc n h ⊢ iprop(∃ s, ⌜∀ hz : n ≠ 0, s = acc (n - 1) (by omega)⌝
      ∗ (owns (c : Thread nD τ) scM fullShare s ∗ R) ∗ G) := by
  cases n with
  | zero =>
    show A ⊢ _
    rw [hA]
    iintro ⟨⟨⟨%d, HS⟩, HB⟩, Hg⟩
    iexists d; iframe
    ipureintro; exact fun hz => absurd rfl hz
  | succ n =>
    rw [Inv_succ]
    iintro ⟨⟨HS, HB⟩, Hg⟩
    iexists _; iframe
    ipureintro; exact fun _ => rfl

end Inv

end Cert.Region
-- ==== Proof.LibBodyAcc.lean ====
import Idealize.ShloMosaic.Lib.Pipeline.Frame

noncomputable section

namespace Idealize.ShloMosaic.Pipeline

open Idealize.SL Idealize.SL.RA Idealize.SL.BI Idealize.ShloMosaic.TcCoe Idealize.ShloMosaic.Rounds
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ₀ : SL.Sem.Labels}

local notation "𝕄" => MT nD τ sig Unit Val ℕ U ℕ

/-- A body that folds two input blocks into a scratch accumulator and writes it out at the last step of each run meets its obligation. -/
theorem BodyObligation.ofAcc {cfg : Cfg sig Λ₀} {c : Dev nD} (dat : Dat τ Val Unit ℕ U ℕ cfg c) (defs₀ : Defs nD τ sig Val Λ₀) (𝒱₀ : Variants)
    (r : Λ₀.Result cfg.body) (w0 w1 w2 : Fin cfg.W) (hW : ∀ Φ : Fin cfg.W → sProp 𝕄, bigSep Finset.univ Φ = iprop(Φ w0 ∗ Φ w1 ∗ Φ w2))
    {sh : Shape} {e : EltTy} (scM : Memref sig .tc .vmem sh e) (R G : sProp 𝕄)
    (reset last : Fin cfg.N → Prop) [DecidablePred reset] [DecidablePred last] (hlr : ∀ t, last t → ¬reset t)
    (acc : Fin cfg.N → sh.Idx → Val e) (z : sh.Idx → Val e)
    (step : ((cfg.win w0).block.Idx → Val (cfg.win w0).elt) → ((cfg.win w1).block.Idx → Val (cfg.win w1).elt) → (sh.Idx → Val e) → sh.Idx → Val e)
    (out : (sh.Idx → Val e) → (cfg.win w2).block.Idx → Val (cfg.win w2).elt)
    (hΦ0 : ∀ t : Fin cfg.N, dat.Φ t.castSucc ⊢ iprop(∃ s, ⌜∀ hz : t.val ≠ 0, s = acc ⟨t.val - 1, by omega⟩⌝
      ∗ (owns (c : Thread nD τ) scM fullShare s ∗ R) ∗ G))
    (hΦ1 : ∀ t : Fin cfg.N, dat.Φ t.succ = iprop((owns (c : Thread nD τ) scM fullShare (acc t) ∗ R) ∗ G))
    (hacc : ∀ (t : Fin cfg.N) s, (∀ hz : t.val ≠ 0, s = acc ⟨t.val - 1, by omega⟩) → acc t = step (dat.after w0 t) (dat.after w1 t) (if reset t then z else s))
    (hb0 : ∀ t d, dat.before w0 t d = dat.after w0 t) (hb1 : ∀ t d, dat.before w1 t d = dat.after w1 t)
    (ha2 : ∀ t, last t → dat.after w2 t = out (acc t))
    (hl0 : ∀ t, cfg.idle w0 (cfg.grid.coords t) = false) (hl1 : ∀ t, cfg.idle w1 (cfg.grid.coords t) = false)
    (hl2 : ∀ t, last t → cfg.idle w2 (cfg.grid.coords t) = false) (hi2 : ∀ t, ¬last t → cfg.idle w2 (cfg.grid.coords t) = true)
    (hf2 : ∀ t, ¬last t → (cfg.win w2).flush t = false) (howes : ∀ t : Fin cfg.N, dat.owesAt () t.succ = dat.owesAt () t.castSucc)
    (hAB : ∀ t, ¬last t → ∀ x0 x1 xo s (K : Λ₀.Result cfg.body → sProp 𝕄),
      iprop(owns (c : Thread nD τ) ((cfg.win w0).stage (cfg.slots t w0)) fullShare x0 ∗ owns (c : Thread nD τ) ((cfg.win w1).stage (cfg.slots t w1)) fullShare x1
        ∗ owns (c : Thread nD τ) ((cfg.win w2).stage (cfg.slots t w2)) fullShare xo ∗ owns (c : Thread nD τ) scM fullShare s
        ∗ (iprop(owns (c : Thread nD τ) ((cfg.win w0).stage (cfg.slots t w0)) fullShare x0 ∗ owns (c : Thread nD τ) ((cfg.win w1).stage (cfg.slots t w1)) fullShare x1
          ∗ owns (c : Thread nD τ) ((cfg.win w2).stage (cfg.slots t w2)) fullShare xo
          ∗ owns (c : Thread nD τ) scM fullShare (step x0 x1 (if reset t then z else s))) -∗ K r))
      ⊢ wp frame (wpE defs₀ 𝒱₀ c none) Set.univ (defs₀ .tc cfg.body (cfg.bodyArgs t (cfg.slots t))) K)
    (hC : ∀ t, last t → ¬reset t → ∀ x0 x1 s (K : Λ₀.Result cfg.body → sProp 𝕄),
      iprop(owns (c : Thread nD τ) ((cfg.win w0).stage (cfg.slots t w0)) fullShare x0 ∗ owns (c : Thread nD τ) ((cfg.win w1).stage (cfg.slots t w1)) fullShare x1
        ∗ (∃ d, owns (c : Thread nD τ) ((cfg.win w2).stage (cfg.slots t w2)) fullShare d) ∗ owns (c : Thread nD τ) scM fullShare s
        ∗ (iprop(owns (c : Thread nD τ) ((cfg.win w0).stage (cfg.slots t w0)) fullShare x0 ∗ owns (c : Thread nD τ) ((cfg.win w1).stage (cfg.slots t w1)) fullShare x1
          ∗ owns (c : Thread nD τ) ((cfg.win w2).stage (cfg.slots t w2)) fullShare (out (step x0 x1 s))
          ∗ owns (c : Thread nD τ) scM fullShare (step x0 x1 s)) -∗ K r))
      ⊢ wp frame (wpE defs₀ 𝒱₀ c none) Set.univ (defs₀ .tc cfg.body (cfg.bodyArgs t (cfg.slots t))) K) :
    BodyObligation dat defs₀ 𝒱₀ () Set.univ := fun t => by
  rw [hW, hW]
  show iprop(dat.Φ t.castSucc ∗ dat.owesAt () t.castSucc ∗ (∃ d, owns (c : Thread nD τ) _ fullShare (dat.before w0 t d))
      ∗ (∃ d, owns (c : Thread nD τ) _ fullShare (dat.before w1 t d)) ∗ (∃ d, owns (c : Thread nD τ) _ fullShare (dat.before w2 t d)))
    ⊢ wp frame _ _ _ fun _ => iprop(dat.Φ t.succ ∗ dat.owesAt () t.succ ∗ dat.leavesExact w0 t ∗ dat.leavesExact w1 t ∗ dat.leavesExact w2 t)
  have live : ∀ w, cfg.idle w (cfg.grid.coords t) = false →
      dat.leavesExact w t = owns (c : Thread nD τ) ((cfg.win w).stage (cfg.slots t w)) fullShare (dat.after w t) := fun w hi => by
    unfold Dat.leavesExact; rw [hi]
  rw [howes, hΦ1, live w0 (hl0 t), live w1 (hl1 t)]
  simp only [hb0, hb1]
  refine (sep_mono_left (hΦ0 t)).trans ?_
  iintro ⟨⟨%s, %hs, ⟨HS, HB⟩, Hg⟩, Ho, ⟨%d0, H0⟩, ⟨%d1, H1⟩, ⟨%d2, H2⟩⟩
  rw [hacc t s hs]
  by_cases hl : last t
  · rw [live w2 (hl2 t hl), ha2 t hl, hacc t s hs, if_neg (hlr t hl)]
    iapply (hC t hl (hlr t hl) (dat.after w0 t) (dat.after w1 t) s _)
    iframe H0 H1 HS
    isplitl [H2]; · iexists _; iexact H2
    iintro ⟨H0, H1, H2, HS⟩
    iframe
  · rw [dat.leavesExact_idle w2 t (hi2 t hl) (hf2 t hl)]
    iapply (hAB t hl (dat.after w0 t) (dat.after w1 t) (dat.before w2 t d2) s _)
    iframe H0 H1 H2 HS
    iintro ⟨H0, H1, H2, HS⟩
    iframe
    iexists _; iexact H2

end Idealize.ShloMosaic.Pipeline

end
-- ==== Proof.Bits.Reg0.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ablk0 (c : Dev nD) (t : Fin cfg0.N) : Vec F S1024x2048 .f32 := iblk0 V c 0 t
abbrev bblk0 (c : Dev nD) (t : Fin cfg0.N) : Vec F S2048x64 .f32 := iblk0 V c 1 t

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The accumulator after point n: the point's block product added to zero at reduction step 0, to what the point before left otherwise. -/
def acc0 (c : Dev nD) : (n : ℕ) → n < cfg0.N → Vec F S1024x64 .f32
  | 0, h => k0_pay2 (ablk0 V c ⟨0, h⟩) (bblk0 V c ⟨0, h⟩) (k0_pay1 (F := F))
  | n + 1, h =>
    if (n + 1) % 4 = 0 then k0_pay2 (ablk0 V c ⟨n + 1, h⟩) (bblk0 V c ⟨n + 1, h⟩) (k0_pay1 (F := F))
    else k0_pay2 (ablk0 V c ⟨n + 1, h⟩) (bblk0 V c ⟨n + 1, h⟩) (acc0 c n (Nat.lt_of_succ_lt h))

theorem acc0_reset (c : Dev nD) (t : Fin cfg0.N) (h0 : t.val % 4 = 0) :
    acc0 V c t.val t.isLt = k0_pay2 (ablk0 V c t) (bblk0 V c t) (k0_pay1 (F := F)) := by
  obtain ⟨n, hn⟩ := t
  cases n with
  | zero => rfl
  | succ n => exact if_pos h0

theorem acc0_step (c : Dev nD) (t : Fin cfg0.N) (h0 : ¬t.val % 4 = 0) :
    acc0 V c t.val t.isLt
      = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h0
  | succ n => exact if_neg h0

abbrev out0 (c : Dev nD) (n : ℕ) (hn : n < cfg0.N) : Vec F S1024x64 .f32 := (acc0 V c n hn)

abbrev scM0 : Memref sig .tc .vmem S1024x64 .f32 := Memref.whole cc0_scratch0

/-- The region's invariant: the general one at this region's accumulator, class invariant and scoped rest. -/
abbrev Phi0 (c : Dev nD) : (n : ℕ) → n ≤ cfg0.N → sProp 𝕄 :=
  Cert.Region.Inv c scM0 (Pipeline.ΦA spec0 c) (Pipeline.scopedRestBut (Ix := Unit) (Name := ℕ) (U := UR sig nD τ) (Lvl := ℕ) (Val := Elt F) spec0 c [cc0_scratch0]) iprop(∃ r, prngReg c r) (acc0 V c)

theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_2 (c : Dev nD) (t : Fin cfg0.N) : (dat0 V c).after 2 t = (acc0 V c t.val t.isLt) := by dsimp only [dat0, out0]
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

end Region0

section Body0

set_option maxHeartbeats 2000000 in
/-- A step that does not end the reduction: the product is added to zero (step 0) or to what the accumulator held; the output block is not written. -/
theorem sound_kernel0_AB (c : Dev nD) (E : Set ℕ) (i : grid0.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond0_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 (if cond0_0 i then k0_pay1 (F := F) else s))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  by_cases hc0 : cond0_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, which is stored as the output block. -/
theorem sound_kernel0_C (c : Dev nD) (E : Set ℕ) (i : grid0.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond0_0 i) (hc1 : cond0_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k0_pay2 x0 x1 s)
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body0

section Obl0

variable (V : (c : Dev nD) → (b : Ref sig .tc) → Buf (Elt F) ((c : Thread nD τ).loc b))

/-- The body obligation: the general one for an accumulating body, at this region's two step triples and grid facts. -/
theorem body_obligation0 (c : Dev nD) : BodyObligation (dat0 (F := F) V c) (defs₀ (F := F)) Variants.none () Set.univ :=
  .ofAcc (dat0 V c) defs₀ Variants.none ⟨⟩ 0 1 2 bigSep_W0 scM0
    (Pipeline.scopedRestBut (Ix := Unit) (Name := ℕ) (U := UR sig nD τ) (Lvl := ℕ) (Val := Elt F) spec0 c [cc0_scratch0]) iprop(∃ r, prngReg c r)
    (fun t => cond0_0 (grid0.coords t)) (fun t => cond0_1 (grid0.coords t))
    (fun t h1 h0 => by have := (hcond0_0 t).mp h0; have := (hcond0_1 t).mp h1; omega)
    (fun t => acc0 V c t.val t.isLt) k0_pay1 k0_pay2 id
    (fun t => by rw [Phi0_castSucc]; exact Cert.Region.Inv_open c scM0 _ _ _ (acc0 V c) (PhiA0_eq c) _ _) (fun _ => rfl)
    (fun t s hs => by
      by_cases h0 : t.val % 4 = 0
      · rw [if_pos ((hcond0_0 t).mpr h0)]; exact acc0_reset V c t h0
      · rw [if_neg (fun h => h0 ((hcond0_0 t).mp h)), hs (fun e => h0 (by rw [e]))]; exact acc0_step V c t h0)
    (before0_0 V c) (before0_1 V c) (fun t _ => after0_2 V c t)
    liveAt0_0 liveAt0_1 liveAt0_2 idleAt0_2 noFlush0_2 (fun _ => rfl)
    (fun t hl => sound_kernel0_AB c Set.univ (grid0.coords t) _ (launch0.stage_whole 0 _) _ (launch0.stage_whole 1 _) _ (launch0.stage_whole 2 _) _ (Memref.isWhole_whole _) hl)
    (fun t hl h0 => sound_kernel0_C c Set.univ (grid0.coords t) _ (launch0.stage_whole 0 _) _ (launch0.stage_whole 1 _) _ (launch0.stage_whole 2 _) _ (Memref.isWhole_whole _) h0 hl)

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  refine (Cert.Region.Inv_open c scM0 _ _ _ (acc0 V c) (PhiA0_eq c) _ _).trans ?_
  iintro ⟨%s, -, ⟨HS, HB⟩, Hg⟩
  iframe
  iexists _; iexact HS

end Obl0

end Cert.Kernel.Hand

end
-- ==== Proof.Bits.Reg1.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ablk1 (c : Dev nD) (t : Fin cfg1.N) : Vec F S1024x2048 .f32 := iblk1 V c 0 t
abbrev bblk1 (c : Dev nD) (t : Fin cfg1.N) : Vec F S2048x64 .f32 := iblk1 V c 1 t

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The accumulator after point n: the point's block product added to zero at reduction step 0, to what the point before left otherwise. -/
def acc1 (c : Dev nD) : (n : ℕ) → n < cfg1.N → Vec F S1024x64 .f32
  | 0, h => k1_pay2 (ablk1 V c ⟨0, h⟩) (bblk1 V c ⟨0, h⟩) (k1_pay1 (F := F))
  | n + 1, h =>
    if (n + 1) % 4 = 0 then k1_pay2 (ablk1 V c ⟨n + 1, h⟩) (bblk1 V c ⟨n + 1, h⟩) (k1_pay1 (F := F))
    else k1_pay2 (ablk1 V c ⟨n + 1, h⟩) (bblk1 V c ⟨n + 1, h⟩) (acc1 c n (Nat.lt_of_succ_lt h))

theorem acc1_reset (c : Dev nD) (t : Fin cfg1.N) (h0 : t.val % 4 = 0) :
    acc1 V c t.val t.isLt = k1_pay2 (ablk1 V c t) (bblk1 V c t) (k1_pay1 (F := F)) := by
  obtain ⟨n, hn⟩ := t
  cases n with
  | zero => rfl
  | succ n => exact if_pos h0

theorem acc1_step (c : Dev nD) (t : Fin cfg1.N) (h0 : ¬t.val % 4 = 0) :
    acc1 V c t.val t.isLt
      = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h0
  | succ n => exact if_neg h0

abbrev out1 (c : Dev nD) (n : ℕ) (hn : n < cfg1.N) : Vec F S1024x64 .f32 := (k1_pay3 (acc1 V c n hn))

abbrev scM1 : Memref sig .tc .vmem S1024x64 .f32 := Memref.whole cc1_scratch0

/-- The region's invariant: the general one at this region's accumulator, class invariant and scoped rest. -/
abbrev Phi1 (c : Dev nD) : (n : ℕ) → n ≤ cfg1.N → sProp 𝕄 :=
  Cert.Region.Inv c scM1 (Pipeline.ΦA spec1 c) (Pipeline.scopedRestBut (Ix := Unit) (Name := ℕ) (U := UR sig nD τ) (Lvl := ℕ) (Val := Elt F) spec1 c [cc1_scratch0]) iprop(∃ r, prngReg c r) (acc1 V c)

theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_2 (c : Dev nD) (t : Fin cfg1.N) : (dat1 V c).after 2 t = (k1_pay3 (acc1 V c t.val t.isLt)) := by dsimp only [dat1, out1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

end Region1

section Body1

set_option maxHeartbeats 2000000 in
/-- A step that does not end the reduction: the product is added to zero (step 0) or to what the accumulator held; the output block is not written. -/
theorem sound_kernel1_AB (c : Dev nD) (E : Set ℕ) (i : grid1.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond1_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 (if cond1_0 i then k1_pay1 (F := F) else s))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  by_cases hc0 : cond1_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, whose maximum with zero is stored as the output block. -/
theorem sound_kernel1_C (c : Dev nD) (E : Set ℕ) (i : grid1.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond1_0 i) (hc1 : cond1_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k1_pay3 (k1_pay2 x0 x1 s))
            ∗ owns (c : Thread nD τ) arg6 fullShare (k1_pay2 x0 x1 s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body1

section Obl1

variable (V : (c : Dev nD) → (b : Ref sig .tc) → Buf (Elt F) ((c : Thread nD τ).loc b))

/-- The body obligation: the general one for an accumulating body, at this region's two step triples and grid facts. -/
theorem body_obligation1 (c : Dev nD) : BodyObligation (dat1 (F := F) V c) (defs₀ (F := F)) Variants.none () Set.univ :=
  .ofAcc (dat1 V c) defs₀ Variants.none ⟨⟩ 0 1 2 bigSep_W1 scM1
    (Pipeline.scopedRestBut (Ix := Unit) (Name := ℕ) (U := UR sig nD τ) (Lvl := ℕ) (Val := Elt F) spec1 c [cc1_scratch0]) iprop(∃ r, prngReg c r)
    (fun t => cond1_0 (grid1.coords t)) (fun t => cond1_1 (grid1.coords t))
    (fun t h1 h0 => by have := (hcond1_0 t).mp h0; have := (hcond1_1 t).mp h1; omega)
    (fun t => acc1 V c t.val t.isLt) k1_pay1 k1_pay2 k1_pay3
    (fun t => by rw [Phi1_castSucc]; exact Cert.Region.Inv_open c scM1 _ _ _ (acc1 V c) (PhiA1_eq c) _ _) (fun _ => rfl)
    (fun t s hs => by
      by_cases h0 : t.val % 4 = 0
      · rw [if_pos ((hcond1_0 t).mpr h0)]; exact acc1_reset V c t h0
      · rw [if_neg (fun h => h0 ((hcond1_0 t).mp h)), hs (fun e => h0 (by rw [e]))]; exact acc1_step V c t h0)
    (before1_0 V c) (before1_1 V c) (fun t _ => after1_2 V c t)
    liveAt1_0 liveAt1_1 liveAt1_2 idleAt1_2 noFlush1_2 (fun _ => rfl)
    (fun t hl => sound_kernel1_AB c Set.univ (grid1.coords t) _ (launch1.stage_whole 0 _) _ (launch1.stage_whole 1 _) _ (launch1.stage_whole 2 _) _ (Memref.isWhole_whole _) hl)
    (fun t hl h0 => sound_kernel1_C c Set.univ (grid1.coords t) _ (launch1.stage_whole 0 _) _ (launch1.stage_whole 1 _) _ (launch1.stage_whole 2 _) _ (Memref.isWhole_whole _) h0 hl)

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  refine (Cert.Region.Inv_open c scM1 _ _ _ (acc1 V c) (PhiA1_eq c) _ _).trans ?_
  iintro ⟨%s, -, ⟨HS, HB⟩, Hg⟩
  iframe
  iexists _; iexact HS

end Obl1

end Cert.Kernel.Hand

end
-- ==== Proof.Bits.Reg2.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S8192x64 .f32 := iblk2 V c 0 t
abbrev bblk2 (c : Dev nD) (t : Fin cfg2.N) : Vec F S64x32 .f32 := iblk2 V c 1 t

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

abbrev out2 (c : Dev nD) (t : Fin cfg2.N) : Vec F S8192x32 .f32 := k2_pay2 (ablk2 V c t) (bblk2 V c t) (k2_pay1 (F := F))

abbrev scM2 : Memref sig .tc .vmem S8192x32 .f32 := Memref.whole cc2_scratch0

theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (ablk2 V c t) (bblk2 V c t) (k2_pay1 (F := F)) := by dsimp only [dat2, out2]
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

end Region2

section Body2

set_option maxHeartbeats 2000000 in
/-- One reduction step in all: the accumulator is set to zero, receives the product, and is stored as the output block. -/
theorem sound_kernel2_D (c : Dev nD) (E : Set ℕ) (i : grid2.Coords)
    (arg3 : Memref sig .tc .vmem S8192x64 .f32) (harg3 : arg3.IsWhole) (arg4 : Memref sig .tc .vmem S64x32 .f32) (harg4 : arg4.IsWhole)
    (arg5 : Memref sig .tc .vmem S8192x32 .f32) (harg5 : arg5.IsWhole) (arg6 : Memref sig .tc .vmem S8192x32 .f32) (harg6 : arg6.IsWhole)
    (hc0 : cond2_0 i) (hc1 : cond2_1 i)
    (x0 : Vec F S8192x64 .f32) (x1 : Vec F S64x32 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k2_pay2 x0 x1 (k2_pay1 (F := F)))
            ∗ (∃ d, owns (c : Thread nD τ) arg6 fullShare d)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S8192x32_S8192x32_0_0 y⟩),
      View.canon_cons_unit_zero (S := S8192x32) hz]
    simp only [View.readAt_eq_ld, View.ld_unit_zero (S := S8192x64) hz, View.ld_unit_zero (S := S64x32) hz, View.ld_unit_zero (S := S8192x32) hz]
    rw [View.readCov_eq_canon_ld _ _ _ (fun y => ⟨_, List.mem_cons_self, View.mem_set_unit_zero hz inb_S8192x32_S8192x32_0_0 y⟩),
      View.canon_cons_unit_zero (S := S8192x32) hz, View.ld_unit_zero (S := S8192x32) hz]
    rw [View.readCov_unit_zero (S := S8192x32) _ hz]
  iexists _; iexists _; isplitr
  swap; · iexact HS
  ipureintro; rfl

end Body2

section Obl2

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: nothing is carried from one point to the next. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [Cert.Region.leavesExact_live (dat2 V c) 0 t (liveAt2_0 t), after2_0]
  rw [Cert.Region.leavesExact_live (dat2 V c) 1 t (liveAt2_1 t), after2_1]
  rw [Cert.Region.leavesExact_live (dat2 V c) 2 t (liveAt2_2 t), after2_2]
  iintro ⟨⟨⟨HS, HB⟩, Hg⟩, Ho, ⟨%d0, H0⟩, ⟨%d1, H1⟩, ⟨%d2, H2⟩⟩
  iapply (sound_kernel2_D c Set.univ (grid2.coords t) _ _ _ _ _ _ _ _ (hcond2_0 t) (hcond2_1 t) (ablk2 V c t) (bblk2 V c t) _)
  iframe H0 H1
  isplitl [H2]; · iexists _; iexact H2
  iframe HS
  iintro ⟨H0, H1, H2, HS⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Obl2

end Cert.Kernel.Hand

end
-- ==== Proof.Bits.Reg3.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ablk3 (c : Dev nD) (t : Fin cfg3.N) : Vec F S1024x2048 .f32 := iblk3 V c 0 t
abbrev bblk3 (c : Dev nD) (t : Fin cfg3.N) : Vec F S2048x32 .f32 := iblk3 V c 1 t

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-- The accumulator after point n: the point's block product added to zero at reduction step 0, to what the point before left otherwise. -/
def acc3 (c : Dev nD) : (n : ℕ) → n < cfg3.N → Vec F S1024x32 .f32
  | 0, h => k3_pay2 (ablk3 V c ⟨0, h⟩) (bblk3 V c ⟨0, h⟩) (k3_pay1 (F := F))
  | n + 1, h =>
    if (n + 1) % 4 = 0 then k3_pay2 (ablk3 V c ⟨n + 1, h⟩) (bblk3 V c ⟨n + 1, h⟩) (k3_pay1 (F := F))
    else k3_pay2 (ablk3 V c ⟨n + 1, h⟩) (bblk3 V c ⟨n + 1, h⟩) (acc3 c n (Nat.lt_of_succ_lt h))

theorem acc3_reset (c : Dev nD) (t : Fin cfg3.N) (h0 : t.val % 4 = 0) :
    acc3 V c t.val t.isLt = k3_pay2 (ablk3 V c t) (bblk3 V c t) (k3_pay1 (F := F)) := by
  obtain ⟨n, hn⟩ := t
  cases n with
  | zero => rfl
  | succ n => exact if_pos h0

theorem acc3_step (c : Dev nD) (t : Fin cfg3.N) (h0 : ¬t.val % 4 = 0) :
    acc3 V c t.val t.isLt
      = k3_pay2 (ablk3 V c t) (bblk3 V c t) (acc3 V c (t.val - 1) (Nat.lt_of_le_of_lt (Nat.sub_le _ _) t.isLt)) := by
  obtain ⟨n, hn⟩ := t
  cases n with
  | zero => exact absurd (Nat.zero_mod _) h0
  | succ n => exact if_neg h0

abbrev out3 (c : Dev nD) (n : ℕ) (hn : n < cfg3.N) : Vec F S1024x32 .f32 := (acc3 V c n hn)

abbrev scM3 : Memref sig .tc .vmem S1024x32 .f32 := Memref.whole cc3_scratch0

/-- The region's invariant: the general one at this region's accumulator, class invariant and scoped rest. -/
abbrev Phi3 (c : Dev nD) : (n : ℕ) → n ≤ cfg3.N → sProp 𝕄 :=
  Cert.Region.Inv c scM3 (Pipeline.ΦA spec3 c) (Pipeline.scopedRestBut (Ix := Unit) (Name := ℕ) (U := UR sig nD τ) (Lvl := ℕ) (Val := Elt F) spec3 c [cc3_scratch0]) iprop(∃ r, prngReg c r) (acc3 V c)

theorem PhiA3_eq (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_2 (c : Dev nD) (t : Fin cfg3.N) : (dat3 V c).after 2 t = (acc3 V c t.val t.isLt) := by dsimp only [dat3, out3]
theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

end Region3

section Body3

set_option maxHeartbeats 2000000 in
/-- A step that does not end the reduction: the product is added to zero (step 0) or to what the accumulator held; the output block is not written. -/
theorem sound_kernel3_AB (c : Dev nD) (E : Set ℕ) (i : grid3.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc1 : ¬cond3_1 i)
    (x0 : Vec F S1024x2048 .f32) (x1 : Vec F S2048x32 .f32) (xo s : Vec F S1024x32 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 (if cond3_0 i then k3_pay1 (F := F) else s))) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  by_cases hc0 : cond3_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]

set_option maxHeartbeats 2000000 in
/-- The last step: the product is added to the accumulator, which is stored as the output block. -/
theorem sound_kernel3_C (c : Dev nD) (E : Set ℕ) (i : grid3.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc0 : ¬cond3_0 i) (hc1 : cond3_1 i)
    (x0 : Vec F S1024x2048 .f32) (x1 : Vec F S2048x32 .f32) (s : Vec F S1024x32 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k3_pay2 x0 x1 s)
            ∗ owns (c : Thread nD τ) arg6 fullShare (k3_pay2 x0 x1 s)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]
  iexists _; isplitr
  swap; · iexact HS
  ipureintro
  sl_unfold_words
  rw [View.read_writes_eq_canon _ _ _ (fun y => ⟨_, List.mem_cons_self, View.mem_set_unit_zero hz inb_S1024x32_S1024x32_0_0 y⟩),
    View.canon_cons_unit_zero (S := S1024x32) hz]
  simp only [View.readAt_eq_ld, View.ld_unit_zero (S := S1024x2048) hz, View.ld_unit_zero (S := S2048x32) hz, View.ld_unit_zero (S := S1024x32) hz]

end Body3

section Obl3

variable (V : (c : Dev nD) → (b : Ref sig .tc) → Buf (Elt F) ((c : Thread nD τ).loc b))

/-- The body obligation: the general one for an accumulating body, at this region's two step triples and grid facts. -/
theorem body_obligation3 (c : Dev nD) : BodyObligation (dat3 (F := F) V c) (defs₀ (F := F)) Variants.none () Set.univ :=
  .ofAcc (dat3 V c) defs₀ Variants.none ⟨⟩ 0 1 2 bigSep_W3 scM3
    (Pipeline.scopedRestBut (Ix := Unit) (Name := ℕ) (U := UR sig nD τ) (Lvl := ℕ) (Val := Elt F) spec3 c [cc3_scratch0]) iprop(∃ r, prngReg c r)
    (fun t => cond3_0 (grid3.coords t)) (fun t => cond3_1 (grid3.coords t))
    (fun t h1 h0 => by have := (hcond3_0 t).mp h0; have := (hcond3_1 t).mp h1; omega)
    (fun t => acc3 V c t.val t.isLt) k3_pay1 k3_pay2 id
    (fun t => by rw [Phi3_castSucc]; exact Cert.Region.Inv_open c scM3 _ _ _ (acc3 V c) (PhiA3_eq c) _ _) (fun _ => rfl)
    (fun t s hs => by
      by_cases h0 : t.val % 4 = 0
      · rw [if_pos ((hcond3_0 t).mpr h0)]; exact acc3_reset V c t h0
      · rw [if_neg (fun h => h0 ((hcond3_0 t).mp h)), hs (fun e => h0 (by rw [e]))]; exact acc3_step V c t h0)
    (before3_0 V c) (before3_1 V c) (fun t _ => after3_2 V c t)
    liveAt3_0 liveAt3_1 liveAt3_2 idleAt3_2 noFlush3_2 (fun _ => rfl)
    (fun t hl => sound_kernel3_AB c Set.univ (grid3.coords t) _ (launch3.stage_whole 0 _) _ (launch3.stage_whole 1 _) _ (launch3.stage_whole 2 _) _ (Memref.isWhole_whole _) hl)
    (fun t hl h0 => sound_kernel3_C c Set.univ (grid3.coords t) _ (launch3.stage_whole 0 _) _ (launch3.stage_whole 1 _) _ (launch3.stage_whole 2 _) _ (Memref.isWhole_whole _) h0 hl)

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl, PhiA3_eq]
  refine (Cert.Region.Inv_open c scM3 _ _ _ (acc3 V c) (PhiA3_eq c) _ _).trans ?_
  iintro ⟨%s, -, ⟨HS, HB⟩, Hg⟩
  iframe
  iexists _; iexact HS

end Obl3

end Cert.Kernel.Hand

end
-- ==== Proof.Bits.Reg4.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ablk4 (c : Dev nD) (t : Fin cfg4.N) : Vec F S1024x2048 .f32 := iblk4 V c 0 t
abbrev bblk4 (c : Dev nD) (t : Fin cfg4.N) : Vec F S2048x64 .f32 := iblk4 V c 1 t

abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-- The accumulator after point n: the point's block product added to zero at reduction step 0, to what the point before left otherwise. -/
def acc4 (c : Dev nD) : (n : ℕ) → n < cfg4.N → Vec F S1024x64 .f32
  | 0, h => k4_pay2 (ablk4 V c ⟨0, h⟩) (bblk4 V c ⟨0, h⟩) (k4_pay1 (F := F))
  | n + 1, h =>
    if (n + 1) % 4 = 0 then k4_pay2 (ablk4 V c ⟨n + 1, h⟩) (bblk4 V c ⟨n + 1, h⟩) (k4_pay1 (F := F))
    else k4_pay2 (ablk4 V c ⟨n + 1, h⟩) (bblk4 V c ⟨n + 1, h⟩) (acc4 c n (Nat.lt_of_succ_lt h))

theorem acc4_reset (c : Dev nD) (t : Fin cfg4.N) (h0 : t.val % 4 = 0) :
    acc4 V c t.val t.isLt = k4_pay2 (ablk4 V c t) (bblk4 V c t) (k4_pay1 (F := F)) := by
  obtain ⟨n, hn⟩ := t
  cases n with
  | zero => rfl
  | succ n => exact if_pos h0

theorem acc4_step (c : Dev nD) (t : Fin cfg4.N) (h0 : ¬t.val % 4 = 0) :
    acc4 V c t.val t.isLt
      = k4_pay2 (ablk4 V c t) (bblk4 V c t) (acc4 V c (t.val - 1) (Nat.lt_of_le_of_lt (Nat.sub_le _ _) t.isLt)) := by
  obtain ⟨n, hn⟩ := t
  cases n with
  | zero => exact absurd (Nat.zero_mod _) h0
  | succ n => exact if_neg h0

abbrev out4 (c : Dev nD) (n : ℕ) (hn : n < cfg4.N) : Vec F S1024x64 .f32 := (acc4 V c n hn)

abbrev scM4 : Memref sig .tc .vmem S1024x64 .f32 := Memref.whole cc4_scratch0

/-- The region's invariant: the general one at this region's accumulator, class invariant and scoped rest. -/
abbrev Phi4 (c : Dev nD) : (n : ℕ) → n ≤ cfg4.N → sProp 𝕄 :=
  Cert.Region.Inv c scM4 (Pipeline.ΦA spec4 c) (Pipeline.scopedRestBut (Ix := Unit) (Name := ℕ) (U := UR sig nD τ) (Lvl := ℕ) (Val := Elt F) spec4 c [cc4_scratch0]) iprop(∃ r, prngReg c r) (acc4 V c)

theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_2 (c : Dev nD) (t : Fin cfg4.N) : (dat4 V c).after 2 t = (acc4 V c t.val t.isLt) := by dsimp only [dat4, out4]
theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

end Region4

section Body4

set_option maxHeartbeats 2000000 in
/-- A step that does not end the reduction: the product is added to zero (step 0) or to what the accumulator held; the output block is not written. -/
theorem sound_kernel4_AB (c : Dev nD) (E : Set ℕ) (i : grid4.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond4_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 (if cond4_0 i then k4_pay1 (F := F) else s))) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  by_cases hc0 : cond4_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, which is stored as the output block. -/
theorem sound_kernel4_C (c : Dev nD) (E : Set ℕ) (i : grid4.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond4_0 i) (hc1 : cond4_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k4_pay2 x0 x1 s)
            ∗ owns (c : Thread nD τ) arg6 fullShare (k4_pay2 x0 x1 s)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body4

section Obl4

variable (V : (c : Dev nD) → (b : Ref sig .tc) → Buf (Elt F) ((c : Thread nD τ).loc b))

/-- The body obligation: the general one for an accumulating body, at this region's two step triples and grid facts. -/
theorem body_obligation4 (c : Dev nD) : BodyObligation (dat4 (F := F) V c) (defs₀ (F := F)) Variants.none () Set.univ :=
  .ofAcc (dat4 V c) defs₀ Variants.none ⟨⟩ 0 1 2 bigSep_W4 scM4
    (Pipeline.scopedRestBut (Ix := Unit) (Name := ℕ) (U := UR sig nD τ) (Lvl := ℕ) (Val := Elt F) spec4 c [cc4_scratch0]) iprop(∃ r, prngReg c r)
    (fun t => cond4_0 (grid4.coords t)) (fun t => cond4_1 (grid4.coords t))
    (fun t h1 h0 => by have := (hcond4_0 t).mp h0; have := (hcond4_1 t).mp h1; omega)
    (fun t => acc4 V c t.val t.isLt) k4_pay1 k4_pay2 id
    (fun t => by rw [Phi4_castSucc]; exact Cert.Region.Inv_open c scM4 _ _ _ (acc4 V c) (PhiA4_eq c) _ _) (fun _ => rfl)
    (fun t s hs => by
      by_cases h0 : t.val % 4 = 0
      · rw [if_pos ((hcond4_0 t).mpr h0)]; exact acc4_reset V c t h0
      · rw [if_neg (fun h => h0 ((hcond4_0 t).mp h)), hs (fun e => h0 (by rw [e]))]; exact acc4_step V c t h0)
    (before4_0 V c) (before4_1 V c) (fun t _ => after4_2 V c t)
    liveAt4_0 liveAt4_1 liveAt4_2 idleAt4_2 noFlush4_2 (fun _ => rfl)
    (fun t hl => sound_kernel4_AB c Set.univ (grid4.coords t) _ (launch4.stage_whole 0 _) _ (launch4.stage_whole 1 _) _ (launch4.stage_whole 2 _) _ (Memref.isWhole_whole _) hl)
    (fun t hl h0 => sound_kernel4_C c Set.univ (grid4.coords t) _ (launch4.stage_whole 0 _) _ (launch4.stage_whole 1 _) _ (launch4.stage_whole 2 _) _ (Memref.isWhole_whole _) h0 hl)

theorem hin4 (c : Dev nD) : Pipeline.ΦA spec4 c ⊢ (dat4 V c).Φ 0 := by
  rw [show (dat4 V c).Φ 0 = Pipeline.ΦA spec4 c from rfl]

theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl, PhiA4_eq]
  refine (Cert.Region.Inv_open c scM4 _ _ _ (acc4 V c) (PhiA4_eq c) _ _).trans ?_
  iintro ⟨%s, -, ⟨HS, HB⟩, Hg⟩
  iframe
  iexists _; iexact HS

end Obl4

end Cert.Kernel.Hand

end
-- ==== Proof.Bits.Reg5.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ablk5 (c : Dev nD) (t : Fin cfg5.N) : Vec F S1024x2048 .f32 := iblk5 V c 0 t
abbrev bblk5 (c : Dev nD) (t : Fin cfg5.N) : Vec F S2048x64 .f32 := iblk5 V c 1 t

abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

/-- The accumulator after point n: the point's block product added to zero at reduction step 0, to what the point before left otherwise. -/
def acc5 (c : Dev nD) : (n : ℕ) → n < cfg5.N → Vec F S1024x64 .f32
  | 0, h => k5_pay2 (ablk5 V c ⟨0, h⟩) (bblk5 V c ⟨0, h⟩) (k5_pay1 (F := F))
  | n + 1, h =>
    if (n + 1) % 4 = 0 then k5_pay2 (ablk5 V c ⟨n + 1, h⟩) (bblk5 V c ⟨n + 1, h⟩) (k5_pay1 (F := F))
    else k5_pay2 (ablk5 V c ⟨n + 1, h⟩) (bblk5 V c ⟨n + 1, h⟩) (acc5 c n (Nat.lt_of_succ_lt h))

theorem acc5_reset (c : Dev nD) (t : Fin cfg5.N) (h0 : t.val % 4 = 0) :
    acc5 V c t.val t.isLt = k5_pay2 (ablk5 V c t) (bblk5 V c t) (k5_pay1 (F := F)) := by
  obtain ⟨n, hn⟩ := t
  cases n with
  | zero => rfl
  | succ n => exact if_pos h0

theorem acc5_step (c : Dev nD) (t : Fin cfg5.N) (h0 : ¬t.val % 4 = 0) :
    acc5 V c t.val t.isLt
      = k5_pay2 (ablk5 V c t) (bblk5 V c t) (acc5 V c (t.val - 1) (Nat.lt_of_le_of_lt (Nat.sub_le _ _) t.isLt)) := by
  obtain ⟨n, hn⟩ := t
  cases n with
  | zero => exact absurd (Nat.zero_mod _) h0
  | succ n => exact if_neg h0

abbrev out5 (c : Dev nD) (n : ℕ) (hn : n < cfg5.N) : Vec F S1024x64 .f32 := (k5_pay3 (acc5 V c n hn))

abbrev scM5 : Memref sig .tc .vmem S1024x64 .f32 := Memref.whole cc5_scratch0

/-- The region's invariant: the general one at this region's accumulator, class invariant and scoped rest. -/
abbrev Phi5 (c : Dev nD) : (n : ℕ) → n ≤ cfg5.N → sProp 𝕄 :=
  Cert.Region.Inv c scM5 (Pipeline.ΦA spec5 c) (Pipeline.scopedRestBut (Ix := Unit) (Name := ℕ) (U := UR sig nD τ) (Lvl := ℕ) (Val := Elt F) spec5 c [cc5_scratch0]) iprop(∃ r, prngReg c r) (acc5 V c)

theorem PhiA5_eq (c : Dev nD) :
    (Pipeline.ΦA spec5 c : sProp 𝕄)
      = iprop(((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 V c t.val t.isLt
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem Phi5_castSucc (c : Dev nD) (t : Fin cfg5.N) :
    (dat5 V c).Φ t.castSucc = Phi5 V c t.val (Nat.le_of_lt t.isLt) := by
  dsimp only [dat5]; simp only [Fin.coe_castSucc]
theorem after5_2 (c : Dev nD) (t : Fin cfg5.N) : (dat5 V c).after 2 t = (k5_pay3 (acc5 V c t.val t.isLt)) := by dsimp only [dat5, out5]
theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

end Region5

section Body5

set_option maxHeartbeats 2000000 in
/-- A step that does not end the reduction: the product is added to zero (step 0) or to what the accumulator held; the output block is not written. -/
theorem sound_kernel5_AB (c : Dev nD) (E : Set ℕ) (i : grid5.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond5_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 x0 x1 (if cond5_0 i then k5_pay1 (F := F) else s))) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  by_cases hc0 : cond5_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, whose maximum with zero is stored as the output block. -/
theorem sound_kernel5_C (c : Dev nD) (E : Set ℕ) (i : grid5.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond5_0 i) (hc1 : cond5_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k5_pay3 (k5_pay2 x0 x1 s))
            ∗ owns (c : Thread nD τ) arg6 fullShare (k5_pay2 x0 x1 s)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body5

section Obl5

variable (V : (c : Dev nD) → (b : Ref sig .tc) → Buf (Elt F) ((c : Thread nD τ).loc b))

/-- The body obligation: the general one for an accumulating body, at this region's two step triples and grid facts. -/
theorem body_obligation5 (c : Dev nD) : BodyObligation (dat5 (F := F) V c) (defs₀ (F := F)) Variants.none () Set.univ :=
  .ofAcc (dat5 V c) defs₀ Variants.none ⟨⟩ 0 1 2 bigSep_W5 scM5
    (Pipeline.scopedRestBut (Ix := Unit) (Name := ℕ) (U := UR sig nD τ) (Lvl := ℕ) (Val := Elt F) spec5 c [cc5_scratch0]) iprop(∃ r, prngReg c r)
    (fun t => cond5_0 (grid5.coords t)) (fun t => cond5_1 (grid5.coords t))
    (fun t h1 h0 => by have := (hcond5_0 t).mp h0; have := (hcond5_1 t).mp h1; omega)
    (fun t => acc5 V c t.val t.isLt) k5_pay1 k5_pay2 k5_pay3
    (fun t => by rw [Phi5_castSucc]; exact Cert.Region.Inv_open c scM5 _ _ _ (acc5 V c) (PhiA5_eq c) _ _) (fun _ => rfl)
    (fun t s hs => by
      by_cases h0 : t.val % 4 = 0
      · rw [if_pos ((hcond5_0 t).mpr h0)]; exact acc5_reset V c t h0
      · rw [if_neg (fun h => h0 ((hcond5_0 t).mp h)), hs (fun e => h0 (by rw [e]))]; exact acc5_step V c t h0)
    (before5_0 V c) (before5_1 V c) (fun t _ => after5_2 V c t)
    liveAt5_0 liveAt5_1 liveAt5_2 idleAt5_2 noFlush5_2 (fun _ => rfl)
    (fun t hl => sound_kernel5_AB c Set.univ (grid5.coords t) _ (launch5.stage_whole 0 _) _ (launch5.stage_whole 1 _) _ (launch5.stage_whole 2 _) _ (Memref.isWhole_whole _) hl)
    (fun t hl h0 => sound_kernel5_C c Set.univ (grid5.coords t) _ (launch5.stage_whole 0 _) _ (launch5.stage_whole 1 _) _ (launch5.stage_whole 2 _) _ (Memref.isWhole_whole _) h0 hl)

theorem hin5 (c : Dev nD) : Pipeline.ΦA spec5 c ⊢ (dat5 V c).Φ 0 := by
  rw [show (dat5 V c).Φ 0 = Pipeline.ΦA spec5 c from rfl]

theorem hout5 (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl, PhiA5_eq]
  refine (Cert.Region.Inv_open c scM5 _ _ _ (acc5 V c) (PhiA5_eq c) _ _).trans ?_
  iintro ⟨%s, -, ⟨HS, HB⟩, Hg⟩
  iframe
  iexists _; iexact HS

end Obl5

end Cert.Kernel.Hand

end
-- ==== Proof.Bits.Reg6.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev ablk6 (c : Dev nD) (t : Fin cfg6.N) : Vec F S8192x64 .f32 := iblk6 V c 0 t
abbrev bblk6 (c : Dev nD) (t : Fin cfg6.N) : Vec F S64x32 .f32 := iblk6 V c 1 t

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

abbrev out6 (c : Dev nD) (t : Fin cfg6.N) : Vec F S8192x32 .f32 := k6_pay2 (ablk6 V c t) (bblk6 V c t) (k6_pay1 (F := F))

abbrev scM6 : Memref sig .tc .vmem S8192x32 .f32 := Memref.whole cc6_scratch0

theorem PhiA6_eq (c : Dev nD) :
    (Pipeline.ΦA spec6 c : sProp 𝕄)
      = iprop(((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = k6_pay2 (ablk6 V c t) (bblk6 V c t) (k6_pay1 (F := F)) := by dsimp only [dat6, out6]
theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

end Region6

section Body6

set_option maxHeartbeats 2000000 in
/-- One reduction step in all: the accumulator is set to zero, receives the product, and is stored as the output block. -/
theorem sound_kernel6_D (c : Dev nD) (E : Set ℕ) (i : grid6.Coords)
    (arg3 : Memref sig .tc .vmem S8192x64 .f32) (harg3 : arg3.IsWhole) (arg4 : Memref sig .tc .vmem S64x32 .f32) (harg4 : arg4.IsWhole)
    (arg5 : Memref sig .tc .vmem S8192x32 .f32) (harg5 : arg5.IsWhole) (arg6 : Memref sig .tc .vmem S8192x32 .f32) (harg6 : arg6.IsWhole)
    (hc0 : cond6_0 i) (hc1 : cond6_1 i)
    (x0 : Vec F S8192x64 .f32) (x1 : Vec F S64x32 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k6_pay2 x0 x1 (k6_pay1 (F := F)))
            ∗ (∃ d, owns (c : Thread nD τ) arg6 fullShare d)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S8192x32_S8192x32_0_0 y⟩),
      View.canon_cons_unit_zero (S := S8192x32) hz]
    simp only [View.readAt_eq_ld, View.ld_unit_zero (S := S8192x64) hz, View.ld_unit_zero (S := S64x32) hz, View.ld_unit_zero (S := S8192x32) hz]
    rw [View.readCov_eq_canon_ld _ _ _ (fun y => ⟨_, List.mem_cons_self, View.mem_set_unit_zero hz inb_S8192x32_S8192x32_0_0 y⟩),
      View.canon_cons_unit_zero (S := S8192x32) hz, View.ld_unit_zero (S := S8192x32) hz]
    rw [View.readCov_unit_zero (S := S8192x32) _ hz]
  iexists _; iexists _; isplitr
  swap; · iexact HS
  ipureintro; rfl

end Body6

section Obl6

variable (V : (c : Dev nD) → (b : Ref sig .tc) → Buf (Elt F) ((c : Thread nD τ).loc b))

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point: nothing is carried from one point to the next. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Pipeline.ΦA spec6 c from rfl, show (dat6 V c).Φ t.castSucc = Pipeline.ΦA spec6 c from rfl, PhiA6_eq]
  rw [Cert.Region.leavesExact_live (dat6 V c) 0 t (liveAt6_0 t), after6_0]
  rw [Cert.Region.leavesExact_live (dat6 V c) 1 t (liveAt6_1 t), after6_1]
  rw [Cert.Region.leavesExact_live (dat6 V c) 2 t (liveAt6_2 t), after6_2]
  iintro ⟨⟨⟨HS, HB⟩, Hg⟩, Ho, ⟨%d0, H0⟩, ⟨%d1, H1⟩, ⟨%d2, H2⟩⟩
  iapply (sound_kernel6_D c Set.univ (grid6.coords t) _ _ _ _ _ _ _ _ (hcond6_0 t) (hcond6_1 t) (ablk6 V c t) (bblk6 V c t) _)
  iframe H0 H1
  isplitl [H2]; · iexists _; iexact H2
  iframe HS
  iintro ⟨H0, H1, H2, HS⟩
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _
theorem hout6 (c : Dev nD) : (dat6 V c).Φ (Fin.last cfg6.N) ⊢ Pipeline.ΦA spec6 c := Idealize.SL.BI.Entails.refl _

end Obl6

end Cert.Kernel.Hand

end
-- ==== Proof.Bits.Reg7.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev ablk7 (c : Dev nD) (t : Fin cfg7.N) : Vec F S1024x2048 .f32 := iblk7 V c 0 t
abbrev bblk7 (c : Dev nD) (t : Fin cfg7.N) : Vec F S2048x32 .f32 := iblk7 V c 1 t

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-- The accumulator after point n: the point's block product added to zero at reduction step 0, to what the point before left otherwise. -/
def acc7 (c : Dev nD) : (n : ℕ) → n < cfg7.N → Vec F S1024x32 .f32
  | 0, h => k7_pay2 (ablk7 V c ⟨0, h⟩) (bblk7 V c ⟨0, h⟩) (k7_pay1 (F := F))
  | n + 1, h =>
    if (n + 1) % 4 = 0 then k7_pay2 (ablk7 V c ⟨n + 1, h⟩) (bblk7 V c ⟨n + 1, h⟩) (k7_pay1 (F := F))
    else k7_pay2 (ablk7 V c ⟨n + 1, h⟩) (bblk7 V c ⟨n + 1, h⟩) (acc7 c n (Nat.lt_of_succ_lt h))

theorem acc7_reset (c : Dev nD) (t : Fin cfg7.N) (h0 : t.val % 4 = 0) :
    acc7 V c t.val t.isLt = k7_pay2 (ablk7 V c t) (bblk7 V c t) (k7_pay1 (F := F)) := by
  obtain ⟨n, hn⟩ := t
  cases n with
  | zero => rfl
  | succ n => exact if_pos h0

theorem acc7_step (c : Dev nD) (t : Fin cfg7.N) (h0 : ¬t.val % 4 = 0) :
    acc7 V c t.val t.isLt
      = k7_pay2 (ablk7 V c t) (bblk7 V c t) (acc7 V c (t.val - 1) (Nat.lt_of_le_of_lt (Nat.sub_le _ _) t.isLt)) := by
  obtain ⟨n, hn⟩ := t
  cases n with
  | zero => exact absurd (Nat.zero_mod _) h0
  | succ n => exact if_neg h0

abbrev out7 (c : Dev nD) (n : ℕ) (hn : n < cfg7.N) : Vec F S1024x32 .f32 := (acc7 V c n hn)

abbrev scM7 : Memref sig .tc .vmem S1024x32 .f32 := Memref.whole cc7_scratch0

/-- The region's invariant: the general one at this region's accumulator, class invariant and scoped rest. -/
abbrev Phi7 (c : Dev nD) : (n : ℕ) → n ≤ cfg7.N → sProp 𝕄 :=
  Cert.Region.Inv c scM7 (Pipeline.ΦA spec7 c) (Pipeline.scopedRestBut (Ix := Unit) (Name := ℕ) (U := UR sig nD τ) (Lvl := ℕ) (Val := Elt F) spec7 c [cc7_scratch0]) iprop(∃ r, prngReg c r) (acc7 V c)

theorem PhiA7_eq (c : Dev nD) :
    (Pipeline.ΦA spec7 c : sProp 𝕄)
      = iprop(((∃ d, owns (c : Thread nD τ) scM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem Phi7_castSucc (c : Dev nD) (t : Fin cfg7.N) :
    (dat7 V c).Φ t.castSucc = Phi7 V c t.val (Nat.le_of_lt t.isLt) := by
  dsimp only [dat7]; simp only [Fin.coe_castSucc]
theorem after7_2 (c : Dev nD) (t : Fin cfg7.N) : (dat7 V c).after 2 t = (acc7 V c t.val t.isLt) := by dsimp only [dat7, out7]
theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

end Region7

section Body7

set_option maxHeartbeats 2000000 in
/-- A step that does not end the reduction: the product is added to zero (step 0) or to what the accumulator held; the output block is not written. -/
theorem sound_kernel7_AB (c : Dev nD) (E : Set ℕ) (i : grid7.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc1 : ¬cond7_1 i)
    (x0 : Vec F S1024x2048 .f32) (x1 : Vec F S2048x32 .f32) (xo s : Vec F S1024x32 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 x0 x1 (if cond7_0 i then k7_pay1 (F := F) else s))) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  by_cases hc0 : cond7_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]

set_option maxHeartbeats 2000000 in
/-- The last step: the product is added to the accumulator, which is stored as the output block. -/
theorem sound_kernel7_C (c : Dev nD) (E : Set ℕ) (i : grid7.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc0 : ¬cond7_0 i) (hc1 : cond7_1 i)
    (x0 : Vec F S1024x2048 .f32) (x1 : Vec F S2048x32 .f32) (s : Vec F S1024x32 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k7_pay2 x0 x1 s)
            ∗ owns (c : Thread nD τ) arg6 fullShare (k7_pay2 x0 x1 s)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]
  iexists _; isplitr
  swap; · iexact HS
  ipureintro
  sl_unfold_words
  rw [View.read_writes_eq_canon _ _ _ (fun y => ⟨_, List.mem_cons_self, View.mem_set_unit_zero hz inb_S1024x32_S1024x32_0_0 y⟩),
    View.canon_cons_unit_zero (S := S1024x32) hz]
  simp only [View.readAt_eq_ld, View.ld_unit_zero (S := S1024x2048) hz, View.ld_unit_zero (S := S2048x32) hz, View.ld_unit_zero (S := S1024x32) hz]

end Body7

section Obl7

variable (V : (c : Dev nD) → (b : Ref sig .tc) → Buf (Elt F) ((c : Thread nD τ).loc b))

/-- The body obligation: the general one for an accumulating body, at this region's two step triples and grid facts. -/
theorem body_obligation7 (c : Dev nD) : BodyObligation (dat7 (F := F) V c) (defs₀ (F := F)) Variants.none () Set.univ :=
  .ofAcc (dat7 V c) defs₀ Variants.none ⟨⟩ 0 1 2 bigSep_W7 scM7
    (Pipeline.scopedRestBut (Ix := Unit) (Name := ℕ) (U := UR sig nD τ) (Lvl := ℕ) (Val := Elt F) spec7 c [cc7_scratch0]) iprop(∃ r, prngReg c r)
    (fun t => cond7_0 (grid7.coords t)) (fun t => cond7_1 (grid7.coords t))
    (fun t h1 h0 => by have := (hcond7_0 t).mp h0; have := (hcond7_1 t).mp h1; omega)
    (fun t => acc7 V c t.val t.isLt) k7_pay1 k7_pay2 id
    (fun t => by rw [Phi7_castSucc]; exact Cert.Region.Inv_open c scM7 _ _ _ (acc7 V c) (PhiA7_eq c) _ _) (fun _ => rfl)
    (fun t s hs => by
      by_cases h0 : t.val % 4 = 0
      · rw [if_pos ((hcond7_0 t).mpr h0)]; exact acc7_reset V c t h0
      · rw [if_neg (fun h => h0 ((hcond7_0 t).mp h)), hs (fun e => h0 (by rw [e]))]; exact acc7_step V c t h0)
    (before7_0 V c) (before7_1 V c) (fun t _ => after7_2 V c t)
    liveAt7_0 liveAt7_1 liveAt7_2 idleAt7_2 noFlush7_2 (fun _ => rfl)
    (fun t hl => sound_kernel7_AB c Set.univ (grid7.coords t) _ (launch7.stage_whole 0 _) _ (launch7.stage_whole 1 _) _ (launch7.stage_whole 2 _) _ (Memref.isWhole_whole _) hl)
    (fun t hl h0 => sound_kernel7_C c Set.univ (grid7.coords t) _ (launch7.stage_whole 0 _) _ (launch7.stage_whole 1 _) _ (launch7.stage_whole 2 _) _ (Memref.isWhole_whole _) h0 hl)

theorem hin7 (c : Dev nD) : Pipeline.ΦA spec7 c ⊢ (dat7 V c).Φ 0 := by
  rw [show (dat7 V c).Φ 0 = Pipeline.ΦA spec7 c from rfl]

theorem hout7 (c : Dev nD) : (dat7 V c).Φ (Fin.last cfg7.N) ⊢ Pipeline.ΦA spec7 c := by
  rw [show (dat7 V c).Φ (Fin.last cfg7.N) = Phi7 V c (Fin.last cfg7.N).val (Nat.le_of_lt_succ (Fin.last cfg7.N).isLt) from rfl, PhiA7_eq]
  refine (Cert.Region.Inv_open c scM7 _ _ _ (acc7 V c) (PhiA7_eq c) _ _).trans ?_
  iintro ⟨%s, -, ⟨HS, HB⟩, Hg⟩
  iframe
  iexists _; iexact HS

end Obl7

end Cert.Kernel.Hand

end
-- ==== Proof.Bits.Reg8.lean ====
import proofs.«145789_j53678501266189_1_alg».proof.Proof.Gen.Kernel.Launch
import proofs.«145789_j53678501266189_1_alg».proof.Proof.Gen.Kernel.Skeleton
import proofs.«145789_j53678501266189_1_alg».proof.Proof.Gen.Kernel.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev ablk8 (c : Dev nD) (t : Fin cfg8.N) : Vec F S1024x32 .f32 := iblk8 V c 0 t
abbrev bblk8 (c : Dev nD) (t : Fin cfg8.N) : Vec F S32x2048 .f32 := iblk8 V c 1 t

abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

abbrev out8 (c : Dev nD) (t : Fin cfg8.N) : Vec F S1024x2048 .f32 := k8_pay2 (ablk8 V c t) (bblk8 V c t) (k8_pay1 (F := F))

abbrev scM8 : Memref sig .tc .vmem S1024x2048 .f32 := Memref.whole cc8_scratch0

theorem PhiA8_eq (c : Dev nD) :
    (Pipeline.ΦA spec8 c : sProp 𝕄)
      = iprop(((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay2 (ablk8 V c t) (bblk8 V c t) (k8_pay1 (F := F)) := by dsimp only [dat8, out8]
theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

end Region8

section Body8

set_option maxHeartbeats 2000000 in
/-- One reduction step in all: the accumulator is set to zero, receives the product, and is stored as the output block. -/
theorem sound_kernel8_D (c : Dev nD) (E : Set ℕ) (i : grid8.Coords)
    (arg3 : Memref sig .tc .vmem S1024x32 .f32) (harg3 : arg3.IsWhole) (arg4 : Memref sig .tc .vmem S32x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond8_0 i) (hc1 : cond8_1 i)
    (x0 : Vec F S1024x32 .f32) (x1 : Vec F S32x2048 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k8_pay2 x0 x1 (k8_pay1 (F := F)))
            ∗ (∃ d, owns (c : Thread nD τ) arg6 fullShare d)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x2048_S1024x2048_0_0 y⟩),
      View.canon_cons_unit_zero (S := S1024x2048) hz]
    simp only [View.readAt_eq_ld, View.ld_unit_zero (S := S1024x32) hz, View.ld_unit_zero (S := S32x2048) hz, View.ld_unit_zero (S := S1024x2048) hz]
    rw [View.readCov_eq_canon_ld _ _ _ (fun y => ⟨_, List.mem_cons_self, View.mem_set_unit_zero hz inb_S1024x2048_S1024x2048_0_0 y⟩),
      View.canon_cons_unit_zero (S := S1024x2048) hz, View.ld_unit_zero (S := S1024x2048) hz]
    rw [View.readCov_unit_zero (S := S1024x2048) _ hz]
  iexists _; iexists _; isplitr
  swap; · iexact HS
  ipureintro; rfl

end Body8

section Obl8

variable (V : (c : Dev nD) → (b : Ref sig .tc) → Buf (Elt F) ((c : Thread nD τ).loc b))

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in
/-- The body at any point: nothing is carried from one point to the next. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl, PhiA8_eq]
  rw [Cert.Region.leavesExact_live (dat8 V c) 0 t (liveAt8_0 t), after8_0]
  rw [Cert.Region.leavesExact_live (dat8 V c) 1 t (liveAt8_1 t), after8_1]
  rw [Cert.Region.leavesExact_live (dat8 V c) 2 t (liveAt8_2 t), after8_2]
  iintro ⟨⟨⟨HS, HB⟩, Hg⟩, Ho, ⟨%d0, H0⟩, ⟨%d1, H1⟩, ⟨%d2, H2⟩⟩
  iapply (sound_kernel8_D c Set.univ (grid8.coords t) _ _ _ _ _ _ _ _ (hcond8_0 t) (hcond8_1 t) (ablk8 V c t) (bblk8 V c t) _)
  iframe H0 H1
  isplitl [H2]; · iexists _; iexact H2
  iframe HS
  iintro ⟨H0, H1, H2, HS⟩
  iframe

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := Idealize.SL.BI.Entails.refl _
theorem hout8 (c : Dev nD) : (dat8 V c).Φ (Fin.last cfg8.N) ⊢ Pipeline.ΦA spec8 c := Idealize.SL.BI.Entails.refl _

end Obl8

end Cert.Kernel.Hand

end
-- ==== Proof.Bits.RunData.lean ====
import proofs.«145789_j53678501266189_1_alg».proof.Proof.Bits.Reg0
import proofs.«145789_j53678501266189_1_alg».proof.Proof.Bits.Reg1
import proofs.«145789_j53678501266189_1_alg».proof.Proof.Bits.Reg2
import proofs.«145789_j53678501266189_1_alg».proof.Proof.Bits.Reg3
import proofs.«145789_j53678501266189_1_alg».proof.Proof.Bits.Reg4
import proofs.«145789_j53678501266189_1_alg».proof.Proof.Bits.Reg5
import proofs.«145789_j53678501266189_1_alg».proof.Proof.Bits.Reg6
import proofs.«145789_j53678501266189_1_alg».proof.Proof.Bits.Reg7
import proofs.«145789_j53678501266189_1_alg».proof.Proof.Bits.Reg8
import proofs.«145789_j53678501266189_1_alg».proof.Proof.Bits.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between two items of @main every unscoped buffer of a core is held at a valuation: the launch memory, then each region's output array replaced by what it wrote back, each host stretch applied. -/
def W0 (c : Dev nD) : Valuation τ sig (Elt F) := fun b => m (c, b)

abbrev U0 : (c : Dev nD) → (b : Ref sig .tc) → Buf (Elt F) ((c : Thread nD τ).loc b) := fun c b => W0 m c b

def o0 (c : Dev nD) : Buf (Elt F) ((c : Thread nD τ).loc main_v0) := (dat0 (U0 m) c).arrAt 2 cfg0.N

def W1 (c : Dev nD) : Valuation τ sig (Elt F) := Function.update (W0 m c) main_v0 (o0 m c)
abbrev U1 : (c : Dev nD) → (b : Ref sig .tc) → Buf (Elt F) ((c : Thread nD τ).loc b) := fun c b => W1 m c b

def o1 (c : Dev nD) : Buf (Elt F) ((c : Thread nD τ).loc main_v1) := (dat1 (U1 m) c).arrAt 2 cfg1.N

def W2 (c : Dev nD) : Valuation τ sig (Elt F) := Function.update (W1 m c) main_v1 (o1 m c)
abbrev U2 : (c : Dev nD) → (b : Ref sig .tc) → Buf (Elt F) ((c : Thread nD τ).loc b) := fun c b => W2 m c b

def o2 (c : Dev nD) : Buf (Elt F) ((c : Thread nD τ).loc main_v2) := (dat2 (U2 m) c).arrAt 2 cfg2.N

def W3 (c : Dev nD) : Valuation τ sig (Elt F) := Function.update (W2 m c) main_v2 (o2 m c)
abbrev U3 : (c : Dev nD) → (b : Ref sig .tc) → Buf (Elt F) ((c : Thread nD τ).loc b) := fun c b => W3 m c b

def o3 (c : Dev nD) : Buf (Elt F) ((c : Thread nD τ).loc main_v3) := (dat3 (U3 m) c).arrAt 2 cfg3.N

def W4 (c : Dev nD) : Valuation τ sig (Elt F) := Function.update (W3 m c) main_v3 (o3 m c)
abbrev U4 : (c : Dev nD) → (b : Ref sig .tc) → Buf (Elt F) ((c : Thread nD τ).loc b) := fun c b => W4 m c b

def o4 (c : Dev nD) : Buf (Elt F) ((c : Thread nD τ).loc main_v4) := (dat4 (U4 m) c).arrAt 2 cfg4.N

def W5 (c : Dev nD) : Valuation τ sig (Elt F) := Function.update (W4 m c) main_v4 (o4 m c)
abbrev U5 : (c : Dev nD) → (b : Ref sig .tc) → Buf (Elt F) ((c : Thread nD τ).loc b) := fun c b => W5 m c b

def o5 (c : Dev nD) : Buf (Elt F) ((c : Thread nD τ).loc main_v5) := (dat5 (U5 m) c).arrAt 2 cfg5.N

def W6 (c : Dev nD) : Valuation τ sig (Elt F) := Function.update (W5 m c) main_v5 (o5 m c)
abbrev U6 : (c : Dev nD) → (b : Ref sig .tc) → Buf (Elt F) ((c : Thread nD τ).loc b) := fun c b => W6 m c b

def o6 (c : Dev nD) : Buf (Elt F) ((c : Thread nD τ).loc main_v6) := (dat6 (U6 m) c).arrAt 2 cfg6.N

def W7 (c : Dev nD) : Valuation τ sig (Elt F) := Function.update (W6 m c) main_v6 (o6 m c)
abbrev U7 : (c : Dev nD) → (b : Ref sig .tc) → Buf (Elt F) ((c : Thread nD τ).loc b) := fun c b => W7 m c b

def o7 (c : Dev nD) : Buf (Elt F) ((c : Thread nD τ).loc main_v7) := (dat7 (U7 m) c).arrAt 2 cfg7.N

def W8 (c : Dev nD) : Valuation τ sig (Elt F) := Function.update (W7 m c) main_v7 (o7 m c)
abbrev U8 : (c : Dev nD) → (b : Ref sig .tc) → Buf (Elt F) ((c : Thread nD τ).loc b) := fun c b => W8 m c b

def W9 (c : Dev nD) : Valuation τ sig (Elt F) := StableHlo.after hostOps8 (W8 m c)
abbrev U9 : (c : Dev nD) → (b : Ref sig .tc) → Buf (Elt F) ((c : Thread nD τ).loc b) := fun c b => W9 m c b

def o8 (c : Dev nD) : Buf (Elt F) ((c : Thread nD τ).loc main_v9) := (dat8 (U9 m) c).arrAt 2 cfg8.N

def W10 (c : Dev nD) : Valuation τ sig (Elt F) := Function.update (W9 m c) main_v9 (o8 m c)
abbrev U10 : (c : Dev nD) → (b : Ref sig .tc) → Buf (Elt F) ((c : Thread nD τ).loc b) := fun c b => W10 m c b

def W11 (c : Dev nD) : Valuation τ sig (Elt F) := StableHlo.after hostOps9 (W10 m c)
abbrev U11 : (c : Dev nD) → (b : Ref sig .tc) → Buf (Elt F) ((c : Thread nD τ).loc b) := fun c b => W11 m c b

/-- The same contents in the form the conditional run reads them: after item J, buffer r of core c. -/
def outs : Outs (F := F) := fun J r c => match J with
  | 1 => W1 m c r | 2 => W2 m c r | 3 => W3 m c r | 4 => W4 m c r | 5 => W5 m c r
  | 6 => W6 m c r | 7 => W7 m c r | 8 => W8 m c r | 10 => W10 m c r | _ => W0 m c r

theorem V0_eq (c : Dev nD) : V0 m c = W0 m c := rfl
theorem V1_eq (c : Dev nD) : V1 m (outs m) c = W1 m c := by
  show Function.update (V0 m c) main_v0 (W1 m c main_v0) = W1 m c
  rw [V0_eq]; unfold W1; rw [Function.update_self]
theorem V2_eq (c : Dev nD) : V2 m (outs m) c = W2 m c := by
  show Function.update (V1 m (outs m) c) main_v1 (W2 m c main_v1) = W2 m c
  rw [V1_eq]; unfold W2; rw [Function.update_self]
theorem V3_eq (c : Dev nD) : V3 m (outs m) c = W3 m c := by
  show Function.update (V2 m (outs m) c) main_v2 (W3 m c main_v2) = W3 m c
  rw [V2_eq]; unfold W3; rw [Function.update_self]
theorem V4_eq (c : Dev nD) : V4 m (outs m) c = W4 m c := by
  show Function.update (V3 m (outs m) c) main_v3 (W4 m c main_v3) = W4 m c
  rw [V3_eq]; unfold W4; rw [Function.update_self]
theorem V5_eq (c : Dev nD) : V5 m (outs m) c = W5 m c := by
  show Function.update (V4 m (outs m) c) main_v4 (W5 m c main_v4) = W5 m c
  rw [V4_eq]; unfold W5; rw [Function.update_self]
theorem V6_eq (c : Dev nD) : V6 m (outs m) c = W6 m c := by
  show Function.update (V5 m (outs m) c) main_v5 (W6 m c main_v5) = W6 m c
  rw [V5_eq]; unfold W6; rw [Function.update_self]
theorem V7_eq (c : Dev nD) : V7 m (outs m) c = W7 m c := by
  show Function.update (V6 m (outs m) c) main_v6 (W7 m c main_v6) = W7 m c
  rw [V6_eq]; unfold W7; rw [Function.update_self]
theorem V8_eq (c : Dev nD) : V8 m (outs m) c = W8 m c := by
  show Function.update (V7 m (outs m) c) main_v7 (W8 m c main_v7) = W8 m c
  rw [V7_eq]; unfold W8; rw [Function.update_self]
theorem V9_eq (c : Dev nD) : V9 m (outs m) c = W9 m c := by
  show StableHlo.after hostOps8 (V8 m (outs m) c) = W9 m c
  rw [V8_eq]; rfl
theorem V10_eq (c : Dev nD) : V10 m (outs m) c = W10 m c := by
  show Function.update (V9 m (outs m) c) main_v9 (W10 m c main_v9) = W10 m c
  rw [V9_eq]; unfold W10; rw [Function.update_self]
theorem V11_eq (c : Dev nD) : V11 m (outs m) c = W11 m c := by
  show StableHlo.after hostOps9 (V10 m (outs m) c) = W11 m c
  rw [V10_eq]; rfl

abbrev p0 : Fin 9 := 0
abbrev p1 : Fin 9 := 1
abbrev p2 : Fin 9 := 2
abbrev p3 : Fin 9 := 3
abbrev p4 : Fin 9 := 4
abbrev p5 : Fin 9 := 5
abbrev p6 : Fin 9 := 6
abbrev p7 : Fin 9 := 7
abbrev p8 : Fin 9 := 8

/-- Every region's proof data, each at its entry valuation. -/
def pdats : (p : Fin 9) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
  | ⟨5, _⟩ => fun c => dat5 (U5 m) c
  | ⟨6, _⟩ => fun c => dat6 (U6 m) c
  | ⟨7, _⟩ => fun c => dat7 (U7 m) c
  | ⟨8, _⟩ => fun c => dat8 (U9 m) c

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.Kernel.Hand

end
-- ==== Proof.LibRegionHeld.lean ====
import Idealize.ShloMosaic.Lib.Pipeline.Frame
import Idealize.ShloMosaic.Lib.Pipeline.RegionsLoop

noncomputable section

namespace Idealize.ShloMosaic.Pipeline

open Idealize.SL Idealize.SL.RA Idealize.SL.BI Idealize.ShloMosaic.TcCoe Idealize.ShloMosaic.Rounds
open scoped Idealize.SL.BI
open Idealize.SL.BI.BIBase Idealize.SL.BI.Laws Idealize.SL.ProofMode Idealize.SL.Sem

variable {nD : Nat} {τ : Topo} {sig : RefSig} {Val : EltTy → Type} {U : Type} [URA U]
variable {Λ₀ : SL.Sem.Labels} {P : Type} [Fintype P]

local notation "𝕄" => MT nD τ sig Unit Val ℕ U ℕ

/-- Inputs are never written and distinct windows have distinct arrays: at the exit each array is the entry valuation updated at the output's. -/
theorem Dat.arrAt_update {cfg : Cfg sig Λ₀} {c : Dev nD} (dat : Dat τ Val Unit ℕ U ℕ cfg c) (hw : WinFacts cfg.spec)
    (V : Valuation τ sig Val) (wo : Fin cfg.W) (hA : ∀ w, dat.A w = V (arrRef cfg.spec w))
    (hio : ∀ w, w ≠ wo → (cfg.win w).isOut = false) (w : Fin cfg.W) :
    dat.arrAt w cfg.N = Function.update V (arrRef cfg.spec wo) (dat.arrAt wo cfg.N) (arrRef cfg.spec w) := by
  by_cases h : w = wo
  · subst h; rw [Function.update_self]
  · rw [Function.update_of_ne (StableHlo.devRef_ne_of_ne fun e => h (hw.arr_inj e)), dat.arrAt_in w (hio w h), hA]

variable (cfgs : P → Cfg sig Λ₀) (pdats : (p : P) → (c : Dev nD) → Dat τ Val Unit ℕ U ℕ (cfgs p) c)
  (defs₀ : Defs nD τ sig Val Λ₀) (𝒱₀ : Variants) (L : GSem nD τ sig → Finset Unit) (lv : GSem nD τ sig → Unit → ℕ)

/-- A region owing nothing, with one output window: its arrays leave the buffers held at `V` and return at `V'`, `V` updated at the output. -/
def RegionSeg.ofHeld {p : P} (lf : LaunchFacts (nD := nD) (τ := τ) cfgs p) (V V' : Dev nD → Valuation τ sig Val) (wo : Fin (cfgs p).W)
    (hV' : ∀ c, V' c = Function.update (V c) (arrRef (cfgs p).spec wo) ((pdats p c).arrAt wo (cfgs p).N))
    (hbody : ∀ c, BodyObligation (pdats p c) defs₀ 𝒱₀ () Set.univ)
    (hq : ∀ c w, (pdats p c).q w = fullShare) (howed : ∀ c t, (pdats p c).owed t = 0) (hrec : ∀ c, (pdats p c).recorded 0 = Set.univ)
    (hA : ∀ c w, (pdats p c).A w = V c (arrRef (cfgs p).spec w)) (hio : ∀ w, w ≠ wo → ((cfgs p).win w).isOut = false)
    (hin : ∀ c, ΦA (cfgs p).spec c ⊢ (pdats p c).Φ 0) (hout : ∀ c, (pdats p c).Φ (Fin.last (cfgs p).N) ⊢ ΦA (cfgs p).spec c) :
    RegionSeg (fun q => (cfgs q).toPCfg) (fun q => (cfgs q).toPCfg_adm) pdats () defs₀ 𝒱₀ L lv p where
  win := lf.win.to₀
  block_pos := lf.block_pos
  stage_whole := lf.stage_whole
  K := PEmpty
  osem k := k.elim
  ho := OwnSemFacts.none _
  hbody c := (hbody c).loose
  hwaits := hwaits_of_owed_zero _ _ _ _ L lv p howed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (V' c) ∗ (∃ r, prngReg c r) ∗ ∃ W, owes (c : Thread nD τ) (0 : CellTallies nD τ sig Unit) W)
  X c := iprop(∃ r, prngReg c r)
  Y c := iprop(∃ r, prngReg c r)
  Z c := unscopedRest (cfgs p).spec c (fun b => V c b)
  hentry c := by
    rw [ownSems0_none]
    have hsplit := arrays_of_unscopedBufs (p := p) (fun q => (cfgs q).toPCfg) (fun q => (cfgs q).toPCfg_adm) pdats lf.win lf.arr_whole c
      ((pdats p c).share_full (hq c)) (fun b => V c b) (hA c)
    rw [unscopedBufs_held] at hsplit
    iintro ⟨⟨Hub, Hp, HO⟩, -, -⟩
    icases HO with ⟨%W, HO⟩
    ihave H := hsplit $$ Hub
    imodintro
    unfold prefHeld Dat.owesAt owesWithin Dat.bound
    rw [show (Finset.univ : Finset (Fin 0)) = ∅ from rfl, BI.bigSep_empty, howed, hrec]
    icases H with ⟨Ha, Hrest⟩
    iframe
    isplitr; · iempintro
    iexists W; iframe
    ipureintro; exact fun _ _ => Or.inl trivial
  hin c := by
    refine .trans ?_ (hin c)
    unfold ΦA
    iintro ⟨Hp, -, Hr⟩
    iframe
  hout c := by
    rw [ownSems0_none]
    refine (hout c).trans ?_
    unfold ΦA
    iintro ⟨Hr, Hp⟩
    iframe; iempintro
  hexit c := by
    have hjoin := unscopedBufs_of_arrays (p := p) (fun q => (cfgs q).toPCfg) (fun q => (cfgs q).toPCfg_adm) lf.win lf.arr_whole c pdats
      ((pdats p c).share_full (hq c)) (fun b => V c b) (fun b => V' c b) ((pdats p c).arrAt · (cfgs p).N)
      (fun w => by rw [hV']; exact (pdats p c).arrAt_update lf.win (V c) wo (hA c) hio w)
      (fun b hb => by
        rw [hV']
        exact Function.update_of_ne (StableHlo.devRef_ne_of_ne fun e => hb (Finset.mem_image.mpr ⟨wo, Finset.mem_univ _, e.symm⟩)) _ _)
    rw [unscopedBufs_held] at hjoin
    unfold Dat.owesAt owesWithin
    rw [howed]
    iintro ⟨Ha, ⟨%W, -, HO⟩, HY, Hrest⟩
    imodintro
    isplitl [Ha Hrest]
    · iapply hjoin; iframe
    iframe
    iexists W; iframe

end Idealize.ShloMosaic.Pipeline

end
-- ==== Proof.Bits.Seg0.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 0 takes the buffers at `W0` to `W1`, which is `W0` updated at its output array: windows 0 and 1 are inputs. -/
noncomputable def reg0 : Pipeline.RegionSeg (pcfgs (F := F)) adm (pdats m) () defs₀ Variants.none L lv p0 :=
  .ofHeld cfgs (pdats m) _ _ L lv launch0 (W0 m) (W1 m) 2 (fun _ => rfl) (body_obligation0 (U0 m)) (fun _ _ => rfl) (fun _ _ => rfl)
    (fun _ => rfl) (A_eq0 (U0 m)) (by decide) (hin0 (U0 m)) (hout0 (U0 m))

end Cert.Kernel.Hand
-- ==== Proof.Bits.Seg1.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 1 takes the buffers at `W1` to `W2`, which is `W1` updated at its output array: windows 0 and 1 are inputs. -/
noncomputable def reg1 : Pipeline.RegionSeg (pcfgs (F := F)) adm (pdats m) () defs₀ Variants.none L lv p1 :=
  .ofHeld cfgs (pdats m) _ _ L lv launch1 (W1 m) (W2 m) 2 (fun _ => rfl) (body_obligation1 (U1 m)) (fun _ _ => rfl) (fun _ _ => rfl)
    (fun _ => rfl) (A_eq1 (U1 m)) (by decide) (hin1 (U1 m)) (hout1 (U1 m))

end Cert.Kernel.Hand
-- ==== Proof.Bits.Seg2.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 2 takes the buffers at `W2` to `W3`, which is `W2` updated at its output array: windows 0 and 1 are inputs. -/
noncomputable def reg2 : Pipeline.RegionSeg (pcfgs (F := F)) adm (pdats m) () defs₀ Variants.none L lv p2 :=
  .ofHeld cfgs (pdats m) _ _ L lv launch2 (W2 m) (W3 m) 2 (fun _ => rfl) (body_obligation2 (U2 m)) (fun _ _ => rfl) (fun _ _ => rfl)
    (fun _ => rfl) (A_eq2 (U2 m)) (by decide) (hin2 (U2 m)) (hout2 (U2 m))

end Cert.Kernel.Hand
-- ==== Proof.Bits.Seg3.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 3 takes the buffers at `W3` to `W4`, which is `W3` updated at its output array: windows 0 and 1 are inputs. -/
noncomputable def reg3 : Pipeline.RegionSeg (pcfgs (F := F)) adm (pdats m) () defs₀ Variants.none L lv p3 :=
  .ofHeld cfgs (pdats m) _ _ L lv launch3 (W3 m) (W4 m) 2 (fun _ => rfl) (body_obligation3 (U3 m)) (fun _ _ => rfl) (fun _ _ => rfl)
    (fun _ => rfl) (A_eq3 (U3 m)) (by decide) (hin3 (U3 m)) (hout3 (U3 m))

end Cert.Kernel.Hand
-- ==== Proof.Bits.Seg4.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 4 takes the buffers at `W4` to `W5`, which is `W4` updated at its output array: windows 0 and 1 are inputs. -/
noncomputable def reg4 : Pipeline.RegionSeg (pcfgs (F := F)) adm (pdats m) () defs₀ Variants.none L lv p4 :=
  .ofHeld cfgs (pdats m) _ _ L lv launch4 (W4 m) (W5 m) 2 (fun _ => rfl) (body_obligation4 (U4 m)) (fun _ _ => rfl) (fun _ _ => rfl)
    (fun _ => rfl) (A_eq4 (U4 m)) (by decide) (hin4 (U4 m)) (hout4 (U4 m))

end Cert.Kernel.Hand
-- ==== Proof.Bits.Seg5.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 5 takes the buffers at `W5` to `W6`, which is `W5` updated at its output array: windows 0 and 1 are inputs. -/
noncomputable def reg5 : Pipeline.RegionSeg (pcfgs (F := F)) adm (pdats m) () defs₀ Variants.none L lv p5 :=
  .ofHeld cfgs (pdats m) _ _ L lv launch5 (W5 m) (W6 m) 2 (fun _ => rfl) (body_obligation5 (U5 m)) (fun _ _ => rfl) (fun _ _ => rfl)
    (fun _ => rfl) (A_eq5 (U5 m)) (by decide) (hin5 (U5 m)) (hout5 (U5 m))

end Cert.Kernel.Hand
-- ==== Proof.Bits.Seg6.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 6 takes the buffers at `W6` to `W7`, which is `W6` updated at its output array: windows 0 and 1 are inputs. -/
noncomputable def reg6 : Pipeline.RegionSeg (pcfgs (F := F)) adm (pdats m) () defs₀ Variants.none L lv p6 :=
  .ofHeld cfgs (pdats m) _ _ L lv launch6 (W6 m) (W7 m) 2 (fun _ => rfl) (body_obligation6 (U6 m)) (fun _ _ => rfl) (fun _ _ => rfl)
    (fun _ => rfl) (A_eq6 (U6 m)) (by decide) (hin6 (U6 m)) (hout6 (U6 m))

end Cert.Kernel.Hand
-- ==== Proof.Bits.Seg7.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 7 takes the buffers at `W7` to `W8`, which is `W7` updated at its output array: windows 0 and 1 are inputs. -/
noncomputable def reg7 : Pipeline.RegionSeg (pcfgs (F := F)) adm (pdats m) () defs₀ Variants.none L lv p7 :=
  .ofHeld cfgs (pdats m) _ _ L lv launch7 (W7 m) (W8 m) 2 (fun _ => rfl) (body_obligation7 (U7 m)) (fun _ _ => rfl) (fun _ _ => rfl)
    (fun _ => rfl) (A_eq7 (U7 m)) (by decide) (hin7 (U7 m)) (hout7 (U7 m))

end Cert.Kernel.Hand
-- ==== Proof.Bits.Seg8.lean ====
import proofs.«145789_j53678501266189_1_alg».proof.Proof.Bits.RunData
import proofs.«145789_j53678501266189_1_alg».proof.Proof.LibRegionHeld

namespace Cert.Kernel.Hand

open Cert.Kernel Cert.Kernel.Gen Idealize.ShloMosaic

variable {F : FTy → Type} [FloatOps F] (m : (ℓ : Loc nD τ sig) → Buf (Elt F) ℓ)

/-- Region 8 takes the buffers at `W9` to `W10`, which is `W9` updated at its output array: windows 0 and 1 are inputs. -/
noncomputable def reg8 : Pipeline.RegionSeg (pcfgs (F := F)) adm (pdats m) () defs₀ Variants.none L lv p8 :=
  .ofHeld cfgs (pdats m) _ _ L lv launch8 (W9 m) (W10 m) 2 (fun _ => rfl) (body_obligation8 (U9 m)) (fun _ _ => rfl) (fun _ _ => rfl)
    (fun _ => rfl) (A_eq8 (U9 m)) (by decide) (hin8 (U9 m)) (hout8 (U9 m))

end Cert.Kernel.Hand
-- ==== Proof.Bits.Run.lean ====
import proofs.«145789_j53678501266189_1_alg».proof.Proof.Bits.Seg0
import proofs.«145789_j53678501266189_1_alg».proof.Proof.Bits.Seg1
import proofs.«145789_j53678501266189_1_alg».proof.Proof.Bits.Seg2
import proofs.«145789_j53678501266189_1_alg».proof.Proof.Bits.Seg3
import proofs.«145789_j53678501266189_1_alg».proof.Proof.Bits.Seg4
import proofs.«145789_j53678501266189_1_alg».proof.Proof.Bits.Seg5
import proofs.«145789_j53678501266189_1_alg».proof.Proof.Bits.Seg6
import proofs.«145789_j53678501266189_1_alg».proof.Proof.Bits.Seg7
import proofs.«145789_j53678501266189_1_alg».proof.Proof.Bits.Seg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates without a fault, the result array at the last valuation and every argument as launched: the conditional run at the nine regions' records. -/
theorem run_main : θ_run defs (onTc (τ := τ) (main (F := F))) ⟨m, fun _ => 0, ρ⟩ (fun r => ∀ c : Dev nD,
      r.2.mem ((c.tc : Thread nD τ).loc main_v10) = W11 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => (show iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr c : sProp 𝕄) from by
          iintro ⟨-, HO, -, Hp, -⟩
          isplitl [Hp]; · iexists _; iexact Hp
          iexists ∅; iexact HO)
      iintro ⟨H, -⟩
      imodintro
      iapply hmono
      iexact H)
    (hE9 := fun c => by iintro ⟨-, H⟩; iexact H)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V2_eq]; exact .rfl) (hpost2 := fun c => by rw [V3_eq]; exact .rfl)
    (R3 := reg3 m) (hpre3 := fun c => by rw [V3_eq]; exact .rfl) (hpost3 := fun c => by rw [V4_eq]; exact .rfl)
    (R4 := reg4 m) (hpre4 := fun c => by rw [V4_eq]; exact .rfl) (hpost4 := fun c => by rw [V5_eq]; exact .rfl)
    (R5 := reg5 m) (hpre5 := fun c => by rw [V5_eq]; exact .rfl) (hpost5 := fun c => by rw [V6_eq]; exact .rfl)
    (R6 := reg6 m) (hpre6 := fun c => by rw [V6_eq]; exact .rfl) (hpost6 := fun c => by rw [V7_eq]; exact .rfl)
    (R7 := reg7 m) (hpre7 := fun c => by rw [V7_eq]; exact .rfl) (hpost7 := fun c => by rw [V8_eq]; exact .rfl)
    (R8 := reg8 m) (hpre8 := fun c => by rw [V9_eq]; exact .rfl) (hpost8 := fun c => by rw [V10_eq]; exact .rfl)
  refine (θ_run defs _ _).mono (fun r hr c => ?_) h
  have := hr c
  rw [V11_eq] at this
  exact this

end Cert.Kernel.Hand

end
-- ==== Proof.Reg0.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ablk0 (c : Dev nD) (t : Fin cfg0.N) : Vec F S1024x2048 .f32 := iblk0 V c 0 t
abbrev bblk0 (c : Dev nD) (t : Fin cfg0.N) : Vec F S2048x64 .f32 := iblk0 V c 1 t

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The accumulator after point n: the point's block product added to zero at reduction step 0, to what the point before left otherwise. -/
def acc0 (c : Dev nD) : (n : ℕ) → n < cfg0.N → Vec F S1024x64 .f32
  | 0, h => k0_pay2 (ablk0 V c ⟨0, h⟩) (bblk0 V c ⟨0, h⟩) (k0_pay1 (F := F))
  | n + 1, h =>
    if (n + 1) % 4 = 0 then k0_pay2 (ablk0 V c ⟨n + 1, h⟩) (bblk0 V c ⟨n + 1, h⟩) (k0_pay1 (F := F))
    else k0_pay2 (ablk0 V c ⟨n + 1, h⟩) (bblk0 V c ⟨n + 1, h⟩) (acc0 c n (Nat.lt_of_succ_lt h))

theorem acc0_reset (c : Dev nD) (t : Fin cfg0.N) (h0 : t.val % 4 = 0) :
    acc0 V c t.val t.isLt = k0_pay2 (ablk0 V c t) (bblk0 V c t) (k0_pay1 (F := F)) := by
  obtain ⟨n, hn⟩ := t
  cases n with
  | zero => rfl
  | succ n => exact if_pos h0

theorem acc0_step (c : Dev nD) (t : Fin cfg0.N) (h0 : ¬t.val % 4 = 0) :
    acc0 V c t.val t.isLt
      = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h0
  | succ n => exact if_neg h0

abbrev out0 (c : Dev nD) (n : ℕ) (hn : n < cfg0.N) : Vec F S1024x64 .f32 := (acc0 V c n hn)

abbrev scM0 : Memref sig .tc .vmem S1024x64 .f32 := Memref.whole cc0_scratch0

/-- The region's invariant: the general one at this region's accumulator, class invariant and scoped rest. -/
abbrev Phi0 (c : Dev nD) : (n : ℕ) → n ≤ cfg0.N → sProp 𝕄 :=
  Cert.Region.Inv c scM0 (Pipeline.ΦA spec0 c) (Pipeline.scopedRestBut (Ix := Unit) (Name := ℕ) (U := UR sig nD τ) (Lvl := ℕ) (Val := Elt F) spec0 c [cc0_scratch0]) iprop(∃ r, prngReg c r) (acc0 V c)

theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_2 (c : Dev nD) (t : Fin cfg0.N) : (dat0 V c).after 2 t = (acc0 V c t.val t.isLt) := by dsimp only [dat0, out0]
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

end Region0

section Body0

set_option maxHeartbeats 2000000 in
/-- A step that does not end the reduction: the product is added to zero (step 0) or to what the accumulator held; the output block is not written. -/
theorem sound_kernel0_AB (c : Dev nD) (E : Set ℕ) (i : grid0.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond0_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 (if cond0_0 i then k0_pay1 (F := F) else s))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  by_cases hc0 : cond0_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, which is stored as the output block. -/
theorem sound_kernel0_C (c : Dev nD) (E : Set ℕ) (i : grid0.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond0_0 i) (hc1 : cond0_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k0_pay2 x0 x1 s)
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body0

section Obl0

variable (V : (c : Dev nD) → (b : Ref sig .tc) → Buf (Elt F) ((c : Thread nD τ).loc b))

/-- The body obligation: the general one for an accumulating body, at this region's two step triples and grid facts. -/
theorem body_obligation0 (c : Dev nD) : BodyObligation (dat0 (F := F) V c) (defs₀ (F := F)) Variants.none () Set.univ :=
  .ofAcc (dat0 V c) defs₀ Variants.none ⟨⟩ 0 1 2 bigSep_W0 scM0
    (Pipeline.scopedRestBut (Ix := Unit) (Name := ℕ) (U := UR sig nD τ) (Lvl := ℕ) (Val := Elt F) spec0 c [cc0_scratch0]) iprop(∃ r, prngReg c r)
    (fun t => cond0_0 (grid0.coords t)) (fun t => cond0_1 (grid0.coords t))
    (fun t h1 h0 => by have := (hcond0_0 t).mp h0; have := (hcond0_1 t).mp h1; omega)
    (fun t => acc0 V c t.val t.isLt) k0_pay1 k0_pay2 id
    (fun t => by rw [Phi0_castSucc]; exact Cert.Region.Inv_open c scM0 _ _ _ (acc0 V c) (PhiA0_eq c) _ _) (fun _ => rfl)
    (fun t s hs => by
      by_cases h0 : t.val % 4 = 0
      · rw [if_pos ((hcond0_0 t).mpr h0)]; exact acc0_reset V c t h0
      · rw [if_neg (fun h => h0 ((hcond0_0 t).mp h)), hs (fun e => h0 (by rw [e]))]; exact acc0_step V c t h0)
    (before0_0 V c) (before0_1 V c) (fun t _ => after0_2 V c t)
    liveAt0_0 liveAt0_1 liveAt0_2 idleAt0_2 noFlush0_2 (fun _ => rfl)
    (fun t hl => sound_kernel0_AB c Set.univ (grid0.coords t) _ (launch0.stage_whole 0 _) _ (launch0.stage_whole 1 _) _ (launch0.stage_whole 2 _) _ (Memref.isWhole_whole _) hl)
    (fun t hl h0 => sound_kernel0_C c Set.univ (grid0.coords t) _ (launch0.stage_whole 0 _) _ (launch0.stage_whole 1 _) _ (launch0.stage_whole 2 _) _ (Memref.isWhole_whole _) h0 hl)

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  refine (Cert.Region.Inv_open c scM0 _ _ _ (acc0 V c) (PhiA0_eq c) _ _).trans ?_
  iintro ⟨%s, -, ⟨HS, HB⟩, Hg⟩
  iframe
  iexists _; iexact HS

end Obl0

end Cert.KernelIdeal.Hand

end
-- ==== Proof.Reg1.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ablk1 (c : Dev nD) (t : Fin cfg1.N) : Vec F S1024x2048 .f32 := iblk1 V c 0 t
abbrev bblk1 (c : Dev nD) (t : Fin cfg1.N) : Vec F S2048x64 .f32 := iblk1 V c 1 t

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The accumulator after point n: the point's block product added to zero at reduction step 0, to what the point before left otherwise. -/
def acc1 (c : Dev nD) : (n : ℕ) → n < cfg1.N → Vec F S1024x64 .f32
  | 0, h => k1_pay2 (ablk1 V c ⟨0, h⟩) (bblk1 V c ⟨0, h⟩) (k1_pay1 (F := F))
  | n + 1, h =>
    if (n + 1) % 4 = 0 then k1_pay2 (ablk1 V c ⟨n + 1, h⟩) (bblk1 V c ⟨n + 1, h⟩) (k1_pay1 (F := F))
    else k1_pay2 (ablk1 V c ⟨n + 1, h⟩) (bblk1 V c ⟨n + 1, h⟩) (acc1 c n (Nat.lt_of_succ_lt h))

theorem acc1_reset (c : Dev nD) (t : Fin cfg1.N) (h0 : t.val % 4 = 0) :
    acc1 V c t.val t.isLt = k1_pay2 (ablk1 V c t) (bblk1 V c t) (k1_pay1 (F := F)) := by
  obtain ⟨n, hn⟩ := t
  cases n with
  | zero => rfl
  | succ n => exact if_pos h0

theorem acc1_step (c : Dev nD) (t : Fin cfg1.N) (h0 : ¬t.val % 4 = 0) :
    acc1 V c t.val t.isLt
      = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h0
  | succ n => exact if_neg h0

abbrev out1 (c : Dev nD) (n : ℕ) (hn : n < cfg1.N) : Vec F S1024x64 .f32 := (k1_pay3 (acc1 V c n hn))

abbrev scM1 : Memref sig .tc .vmem S1024x64 .f32 := Memref.whole cc1_scratch0

/-- The region's invariant: the general one at this region's accumulator, class invariant and scoped rest. -/
abbrev Phi1 (c : Dev nD) : (n : ℕ) → n ≤ cfg1.N → sProp 𝕄 :=
  Cert.Region.Inv c scM1 (Pipeline.ΦA spec1 c) (Pipeline.scopedRestBut (Ix := Unit) (Name := ℕ) (U := UR sig nD τ) (Lvl := ℕ) (Val := Elt F) spec1 c [cc1_scratch0]) iprop(∃ r, prngReg c r) (acc1 V c)

theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_2 (c : Dev nD) (t : Fin cfg1.N) : (dat1 V c).after 2 t = (k1_pay3 (acc1 V c t.val t.isLt)) := by dsimp only [dat1, out1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

end Region1

section Body1

set_option maxHeartbeats 2000000 in
/-- A step that does not end the reduction: the product is added to zero (step 0) or to what the accumulator held; the output block is not written. -/
theorem sound_kernel1_AB (c : Dev nD) (E : Set ℕ) (i : grid1.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond1_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 (if cond1_0 i then k1_pay1 (F := F) else s))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  by_cases hc0 : cond1_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, whose maximum with zero is stored as the output block. -/
theorem sound_kernel1_C (c : Dev nD) (E : Set ℕ) (i : grid1.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond1_0 i) (hc1 : cond1_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k1_pay3 (k1_pay2 x0 x1 s))
            ∗ owns (c : Thread nD τ) arg6 fullShare (k1_pay2 x0 x1 s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body1

section Obl1

variable (V : (c : Dev nD) → (b : Ref sig .tc) → Buf (Elt F) ((c : Thread nD τ).loc b))

/-- The body obligation: the general one for an accumulating body, at this region's two step triples and grid facts. -/
theorem body_obligation1 (c : Dev nD) : BodyObligation (dat1 (F := F) V c) (defs₀ (F := F)) Variants.none () Set.univ :=
  .ofAcc (dat1 V c) defs₀ Variants.none ⟨⟩ 0 1 2 bigSep_W1 scM1
    (Pipeline.scopedRestBut (Ix := Unit) (Name := ℕ) (U := UR sig nD τ) (Lvl := ℕ) (Val := Elt F) spec1 c [cc1_scratch0]) iprop(∃ r, prngReg c r)
    (fun t => cond1_0 (grid1.coords t)) (fun t => cond1_1 (grid1.coords t))
    (fun t h1 h0 => by have := (hcond1_0 t).mp h0; have := (hcond1_1 t).mp h1; omega)
    (fun t => acc1 V c t.val t.isLt) k1_pay1 k1_pay2 k1_pay3
    (fun t => by rw [Phi1_castSucc]; exact Cert.Region.Inv_open c scM1 _ _ _ (acc1 V c) (PhiA1_eq c) _ _) (fun _ => rfl)
    (fun t s hs => by
      by_cases h0 : t.val % 4 = 0
      · rw [if_pos ((hcond1_0 t).mpr h0)]; exact acc1_reset V c t h0
      · rw [if_neg (fun h => h0 ((hcond1_0 t).mp h)), hs (fun e => h0 (by rw [e]))]; exact acc1_step V c t h0)
    (before1_0 V c) (before1_1 V c) (fun t _ => after1_2 V c t)
    liveAt1_0 liveAt1_1 liveAt1_2 idleAt1_2 noFlush1_2 (fun _ => rfl)
    (fun t hl => sound_kernel1_AB c Set.univ (grid1.coords t) _ (launch1.stage_whole 0 _) _ (launch1.stage_whole 1 _) _ (launch1.stage_whole 2 _) _ (Memref.isWhole_whole _) hl)
    (fun t hl h0 => sound_kernel1_C c Set.univ (grid1.coords t) _ (launch1.stage_whole 0 _) _ (launch1.stage_whole 1 _) _ (launch1.stage_whole 2 _) _ (Memref.isWhole_whole _) h0 hl)

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  refine (Cert.Region.Inv_open c scM1 _ _ _ (acc1 V c) (PhiA1_eq c) _ _).trans ?_
  iintro ⟨%s, -, ⟨HS, HB⟩, Hg⟩
  iframe
  iexists _; iexact HS

end Obl1

end Cert.KernelIdeal.Hand

end
-- ==== Proof.Reg2.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S8192x64 .f32 := iblk2 V c 0 t
abbrev bblk2 (c : Dev nD) (t : Fin cfg2.N) : Vec F S64x32 .f32 := iblk2 V c 1 t

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) :=
  (by decide +kernel : ∀ t : Fin grid2.N, cond2_0 (grid2.coords t))
abbrev cond2_1 (i : grid2.Coords) : Prop := k2_cond2 i = 1#1
theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

abbrev out2 (c : Dev nD) (t : Fin cfg2.N) : Vec F S8192x32 .f32 := k2_pay2 (ablk2 V c t) (bblk2 V c t) (k2_pay1 (F := F))

abbrev scM2 : Memref sig .tc .vmem S8192x32 .f32 := Memref.whole cc2_scratch0

theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (ablk2 V c t) (bblk2 V c t) (k2_pay1 (F := F)) := by dsimp only [dat2, out2]
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

end Region2

section Body2

set_option maxHeartbeats 2000000 in
/-- One reduction step in all: the accumulator is set to zero, receives the product, and is stored as the output block. -/
theorem sound_kernel2_D (c : Dev nD) (E : Set ℕ) (i : grid2.Coords)
    (arg3 : Memref sig .tc .vmem S8192x64 .f32) (harg3 : arg3.IsWhole) (arg4 : Memref sig .tc .vmem S64x32 .f32) (harg4 : arg4.IsWhole)
    (arg5 : Memref sig .tc .vmem S8192x32 .f32) (harg5 : arg5.IsWhole) (arg6 : Memref sig .tc .vmem S8192x32 .f32) (harg6 : arg6.IsWhole)
    (hc0 : cond2_0 i) (hc1 : cond2_1 i)
    (x0 : Vec F S8192x64 .f32) (x1 : Vec F S64x32 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k2_pay2 x0 x1 (k2_pay1 (F := F)))
            ∗ (∃ d, owns (c : Thread nD τ) arg6 fullShare d)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S8192x32_S8192x32_0_0 y⟩),
      View.canon_cons_unit_zero (S := S8192x32) hz]
    simp only [View.readAt_eq_ld, View.ld_unit_zero (S := S8192x64) hz, View.ld_unit_zero (S := S64x32) hz, View.ld_unit_zero (S := S8192x32) hz]
    rw [View.readCov_eq_canon_ld _ _ _ (fun y => ⟨_, List.mem_cons_self, View.mem_set_unit_zero hz inb_S8192x32_S8192x32_0_0 y⟩),
      View.canon_cons_unit_zero (S := S8192x32) hz, View.ld_unit_zero (S := S8192x32) hz]
    rw [View.readCov_unit_zero (S := S8192x32) _ hz]
  iexists _; iexists _; isplitr
  swap; · iexact HS
  ipureintro; rfl

end Body2

section Obl2

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: nothing is carried from one point to the next. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [Cert.Region.leavesExact_live (dat2 V c) 0 t (liveAt2_0 t), after2_0]
  rw [Cert.Region.leavesExact_live (dat2 V c) 1 t (liveAt2_1 t), after2_1]
  rw [Cert.Region.leavesExact_live (dat2 V c) 2 t (liveAt2_2 t), after2_2]
  iintro ⟨⟨⟨HS, HB⟩, Hg⟩, Ho, ⟨%d0, H0⟩, ⟨%d1, H1⟩, ⟨%d2, H2⟩⟩
  iapply (sound_kernel2_D c Set.univ (grid2.coords t) _ _ _ _ _ _ _ _ (hcond2_0 t) (hcond2_1 t) (ablk2 V c t) (bblk2 V c t) _)
  iframe H0 H1
  isplitl [H2]; · iexists _; iexact H2
  iframe HS
  iintro ⟨H0, H1, H2, HS⟩
  iframe

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Obl2

end Cert.KernelIdeal.Hand

end
-- ==== Proof.Reg3.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ablk3 (c : Dev nD) (t : Fin cfg3.N) : Vec F S1024x2048 .f32 := iblk3 V c 0 t
abbrev bblk3 (c : Dev nD) (t : Fin cfg3.N) : Vec F S2048x32 .f32 := iblk3 V c 1 t

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-- The accumulator after point n: the point's block product added to zero at reduction step 0, to what the point before left otherwise. -/
def acc3 (c : Dev nD) : (n : ℕ) → n < cfg3.N → Vec F S1024x32 .f32
  | 0, h => k3_pay2 (ablk3 V c ⟨0, h⟩) (bblk3 V c ⟨0, h⟩) (k3_pay1 (F := F))
  | n + 1, h =>
    if (n + 1) % 4 = 0 then k3_pay2 (ablk3 V c ⟨n + 1, h⟩) (bblk3 V c ⟨n + 1, h⟩) (k3_pay1 (F := F))
    else k3_pay2 (ablk3 V c ⟨n + 1, h⟩) (bblk3 V c ⟨n + 1, h⟩) (acc3 c n (Nat.lt_of_succ_lt h))

theorem acc3_reset (c : Dev nD) (t : Fin cfg3.N) (h0 : t.val % 4 = 0) :
    acc3 V c t.val t.isLt = k3_pay2 (ablk3 V c t) (bblk3 V c t) (k3_pay1 (F := F)) := by
  obtain ⟨n, hn⟩ := t
  cases n with
  | zero => rfl
  | succ n => exact if_pos h0

theorem acc3_step (c : Dev nD) (t : Fin cfg3.N) (h0 : ¬t.val % 4 = 0) :
    acc3 V c t.val t.isLt
      = k3_pay2 (ablk3 V c t) (bblk3 V c t) (acc3 V c (t.val - 1) (Nat.lt_of_le_of_lt (Nat.sub_le _ _) t.isLt)) := by
  obtain ⟨n, hn⟩ := t
  cases n with
  | zero => exact absurd (Nat.zero_mod _) h0
  | succ n => exact if_neg h0

abbrev out3 (c : Dev nD) (n : ℕ) (hn : n < cfg3.N) : Vec F S1024x32 .f32 := (acc3 V c n hn)

abbrev scM3 : Memref sig .tc .vmem S1024x32 .f32 := Memref.whole cc3_scratch0

/-- The region's invariant: the general one at this region's accumulator, class invariant and scoped rest. -/
abbrev Phi3 (c : Dev nD) : (n : ℕ) → n ≤ cfg3.N → sProp 𝕄 :=
  Cert.Region.Inv c scM3 (Pipeline.ΦA spec3 c) (Pipeline.scopedRestBut (Ix := Unit) (Name := ℕ) (U := UR sig nD τ) (Lvl := ℕ) (Val := Elt F) spec3 c [cc3_scratch0]) iprop(∃ r, prngReg c r) (acc3 V c)

theorem PhiA3_eq (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = Phi3 V c t.val (Nat.le_of_lt t.isLt) := by
  dsimp only [dat3]; simp only [Fin.coe_castSucc]
theorem after3_2 (c : Dev nD) (t : Fin cfg3.N) : (dat3 V c).after 2 t = (acc3 V c t.val t.isLt) := by dsimp only [dat3, out3]
theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

end Region3

section Body3

set_option maxHeartbeats 2000000 in
/-- A step that does not end the reduction: the product is added to zero (step 0) or to what the accumulator held; the output block is not written. -/
theorem sound_kernel3_AB (c : Dev nD) (E : Set ℕ) (i : grid3.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc1 : ¬cond3_1 i)
    (x0 : Vec F S1024x2048 .f32) (x1 : Vec F S2048x32 .f32) (xo s : Vec F S1024x32 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 (if cond3_0 i then k3_pay1 (F := F) else s))) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  by_cases hc0 : cond3_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]

set_option maxHeartbeats 2000000 in
/-- The last step: the product is added to the accumulator, which is stored as the output block. -/
theorem sound_kernel3_C (c : Dev nD) (E : Set ℕ) (i : grid3.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc0 : ¬cond3_0 i) (hc1 : cond3_1 i)
    (x0 : Vec F S1024x2048 .f32) (x1 : Vec F S2048x32 .f32) (s : Vec F S1024x32 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k3_pay2 x0 x1 s)
            ∗ owns (c : Thread nD τ) arg6 fullShare (k3_pay2 x0 x1 s)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]
  iexists _; isplitr
  swap; · iexact HS
  ipureintro
  sl_unfold_words
  rw [View.read_writes_eq_canon _ _ _ (fun y => ⟨_, List.mem_cons_self, View.mem_set_unit_zero hz inb_S1024x32_S1024x32_0_0 y⟩),
    View.canon_cons_unit_zero (S := S1024x32) hz]
  simp only [View.readAt_eq_ld, View.ld_unit_zero (S := S1024x2048) hz, View.ld_unit_zero (S := S2048x32) hz, View.ld_unit_zero (S := S1024x32) hz]

end Body3

section Obl3

variable (V : (c : Dev nD) → (b : Ref sig .tc) → Buf (Elt F) ((c : Thread nD τ).loc b))

/-- The body obligation: the general one for an accumulating body, at this region's two step triples and grid facts. -/
theorem body_obligation3 (c : Dev nD) : BodyObligation (dat3 (F := F) V c) (defs₀ (F := F)) Variants.none () Set.univ :=
  .ofAcc (dat3 V c) defs₀ Variants.none ⟨⟩ 0 1 2 bigSep_W3 scM3
    (Pipeline.scopedRestBut (Ix := Unit) (Name := ℕ) (U := UR sig nD τ) (Lvl := ℕ) (Val := Elt F) spec3 c [cc3_scratch0]) iprop(∃ r, prngReg c r)
    (fun t => cond3_0 (grid3.coords t)) (fun t => cond3_1 (grid3.coords t))
    (fun t h1 h0 => by have := (hcond3_0 t).mp h0; have := (hcond3_1 t).mp h1; omega)
    (fun t => acc3 V c t.val t.isLt) k3_pay1 k3_pay2 id
    (fun t => by rw [Phi3_castSucc]; exact Cert.Region.Inv_open c scM3 _ _ _ (acc3 V c) (PhiA3_eq c) _ _) (fun _ => rfl)
    (fun t s hs => by
      by_cases h0 : t.val % 4 = 0
      · rw [if_pos ((hcond3_0 t).mpr h0)]; exact acc3_reset V c t h0
      · rw [if_neg (fun h => h0 ((hcond3_0 t).mp h)), hs (fun e => h0 (by rw [e]))]; exact acc3_step V c t h0)
    (before3_0 V c) (before3_1 V c) (fun t _ => after3_2 V c t)
    liveAt3_0 liveAt3_1 liveAt3_2 idleAt3_2 noFlush3_2 (fun _ => rfl)
    (fun t hl => sound_kernel3_AB c Set.univ (grid3.coords t) _ (launch3.stage_whole 0 _) _ (launch3.stage_whole 1 _) _ (launch3.stage_whole 2 _) _ (Memref.isWhole_whole _) hl)
    (fun t hl h0 => sound_kernel3_C c Set.univ (grid3.coords t) _ (launch3.stage_whole 0 _) _ (launch3.stage_whole 1 _) _ (launch3.stage_whole 2 _) _ (Memref.isWhole_whole _) h0 hl)

theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl, PhiA3_eq]
  refine (Cert.Region.Inv_open c scM3 _ _ _ (acc3 V c) (PhiA3_eq c) _ _).trans ?_
  iintro ⟨%s, -, ⟨HS, HB⟩, Hg⟩
  iframe
  iexists _; iexact HS

end Obl3

end Cert.KernelIdeal.Hand

end
-- ==== Proof.Reg4.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ablk4 (c : Dev nD) (t : Fin cfg4.N) : Vec F S1024x2048 .f32 := iblk4 V c 0 t
abbrev bblk4 (c : Dev nD) (t : Fin cfg4.N) : Vec F S2048x64 .f32 := iblk4 V c 1 t

abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-- The accumulator after point n: the point's block product added to zero at reduction step 0, to what the point before left otherwise. -/
def acc4 (c : Dev nD) : (n : ℕ) → n < cfg4.N → Vec F S1024x64 .f32
  | 0, h => k4_pay2 (ablk4 V c ⟨0, h⟩) (bblk4 V c ⟨0, h⟩) (k4_pay1 (F := F))
  | n + 1, h =>
    if (n + 1) % 4 = 0 then k4_pay2 (ablk4 V c ⟨n + 1, h⟩) (bblk4 V c ⟨n + 1, h⟩) (k4_pay1 (F := F))
    else k4_pay2 (ablk4 V c ⟨n + 1, h⟩) (bblk4 V c ⟨n + 1, h⟩) (acc4 c n (Nat.lt_of_succ_lt h))

theorem acc4_reset (c : Dev nD) (t : Fin cfg4.N) (h0 : t.val % 4 = 0) :
    acc4 V c t.val t.isLt = k4_pay2 (ablk4 V c t) (bblk4 V c t) (k4_pay1 (F := F)) := by
  obtain ⟨n, hn⟩ := t
  cases n with
  | zero => rfl
  | succ n => exact if_pos h0

theorem acc4_step (c : Dev nD) (t : Fin cfg4.N) (h0 : ¬t.val % 4 = 0) :
    acc4 V c t.val t.isLt
      = k4_pay2 (ablk4 V c t) (bblk4 V c t) (acc4 V c (t.val - 1) (Nat.lt_of_le_of_lt (Nat.sub_le _ _) t.isLt)) := by
  obtain ⟨n, hn⟩ := t
  cases n with
  | zero => exact absurd (Nat.zero_mod _) h0
  | succ n => exact if_neg h0

abbrev out4 (c : Dev nD) (n : ℕ) (hn : n < cfg4.N) : Vec F S1024x64 .f32 := (acc4 V c n hn)

abbrev scM4 : Memref sig .tc .vmem S1024x64 .f32 := Memref.whole cc4_scratch0

/-- The region's invariant: the general one at this region's accumulator, class invariant and scoped rest. -/
abbrev Phi4 (c : Dev nD) : (n : ℕ) → n ≤ cfg4.N → sProp 𝕄 :=
  Cert.Region.Inv c scM4 (Pipeline.ΦA spec4 c) (Pipeline.scopedRestBut (Ix := Unit) (Name := ℕ) (U := UR sig nD τ) (Lvl := ℕ) (Val := Elt F) spec4 c [cc4_scratch0]) iprop(∃ r, prngReg c r) (acc4 V c)

theorem PhiA4_eq (c : Dev nD) :
    (Pipeline.ΦA spec4 c : sProp 𝕄)
      = iprop(((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_2 (c : Dev nD) (t : Fin cfg4.N) : (dat4 V c).after 2 t = (acc4 V c t.val t.isLt) := by dsimp only [dat4, out4]
theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

end Region4

section Body4

set_option maxHeartbeats 2000000 in
/-- A step that does not end the reduction: the product is added to zero (step 0) or to what the accumulator held; the output block is not written. -/
theorem sound_kernel4_AB (c : Dev nD) (E : Set ℕ) (i : grid4.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond4_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k4_pay2 x0 x1 (if cond4_0 i then k4_pay1 (F := F) else s))) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  by_cases hc0 : cond4_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, which is stored as the output block. -/
theorem sound_kernel4_C (c : Dev nD) (E : Set ℕ) (i : grid4.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond4_0 i) (hc1 : cond4_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k4_pay2 x0 x1 s)
            ∗ owns (c : Thread nD τ) arg6 fullShare (k4_pay2 x0 x1 s)) -∗ K ⟨⟩))
      ⊢ wp frame (wpE (defs₀ (F := F)) Variants.none c none) E (cc4__matmul_kernel i arg3 harg3 arg4 harg4 arg5 harg5 arg6 harg6) K := by
  simp only [cc4__matmul_kernel_eq_skeleton]; unfold cc4__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body4

section Obl4

variable (V : (c : Dev nD) → (b : Ref sig .tc) → Buf (Elt F) ((c : Thread nD τ).loc b))

/-- The body obligation: the general one for an accumulating body, at this region's two step triples and grid facts. -/
theorem body_obligation4 (c : Dev nD) : BodyObligation (dat4 (F := F) V c) (defs₀ (F := F)) Variants.none () Set.univ :=
  .ofAcc (dat4 V c) defs₀ Variants.none ⟨⟩ 0 1 2 bigSep_W4 scM4
    (Pipeline.scopedRestBut (Ix := Unit) (Name := ℕ) (U := UR sig nD τ) (Lvl := ℕ) (Val := Elt F) spec4 c [cc4_scratch0]) iprop(∃ r, prngReg c r)
    (fun t => cond4_0 (grid4.coords t)) (fun t => cond4_1 (grid4.coords t))
    (fun t h1 h0 => by have := (hcond4_0 t).mp h0; have := (hcond4_1 t).mp h1; omega)
    (fun t => acc4 V c t.val t.isLt) k4_pay1 k4_pay2 id
    (fun t => by rw [Phi4_castSucc]; exact Cert.Region.Inv_open c scM4 _ _ _ (acc4 V c) (PhiA4_eq c) _ _) (fun _ => rfl)
    (fun t s hs => by
      by_cases h0 : t.val % 4 = 0
      · rw [if_pos ((hcond4_0 t).mpr h0)]; exact acc4_reset V c t h0
      · rw [if_neg (fun h => h0 ((hcond4_0 t).mp h)), hs (fun e => h0 (by rw [e]))]; exact acc4_step V c t h0)
    (before4_0 V c) (before4_1 V c) (fun t _ => after4_2 V c t)
    liveAt4_0 liveAt4_1 liveAt4_2 idleAt4_2 noFlush4_2 (fun _ => rfl)
    (fun t hl => sound_kernel4_AB c Set.univ (grid4.coords t) _ (launch4.stage_whole 0 _) _ (launch4.stage_whole 1 _) _ (launch4.stage_whole 2 _) _ (Memref.isWhole_whole _) hl)
    (fun t hl h0 => sound_kernel4_C c Set.univ (grid4.coords t) _ (launch4.stage_whole 0 _) _ (launch4.stage_whole 1 _) _ (launch4.stage_whole 2 _) _ (Memref.isWhole_whole _) h0 hl)

theorem hin4 (c : Dev nD) : Pipeline.ΦA spec4 c ⊢ (dat4 V c).Φ 0 := by
  rw [show (dat4 V c).Φ 0 = Pipeline.ΦA spec4 c from rfl]

theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl, PhiA4_eq]
  refine (Cert.Region.Inv_open c scM4 _ _ _ (acc4 V c) (PhiA4_eq c) _ _).trans ?_
  iintro ⟨%s, -, ⟨HS, HB⟩, Hg⟩
  iframe
  iexists _; iexact HS

end Obl4

end Cert.KernelIdeal.Hand

end
-- ==== Proof.Reg5.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ablk5 (c : Dev nD) (t : Fin cfg5.N) : Vec F S1024x2048 .f32 := iblk5 V c 0 t
abbrev bblk5 (c : Dev nD) (t : Fin cfg5.N) : Vec F S2048x64 .f32 := iblk5 V c 1 t

abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
theorem liveAt5_2 : ∀ t : Fin cfg5.N, cond5_1 (grid5.coords t) → cfg5.idle 2 (grid5.coords t) = false := by decide +kernel

/-- The accumulator after point n: the point's block product added to zero at reduction step 0, to what the point before left otherwise. -/
def acc5 (c : Dev nD) : (n : ℕ) → n < cfg5.N → Vec F S1024x64 .f32
  | 0, h => k5_pay2 (ablk5 V c ⟨0, h⟩) (bblk5 V c ⟨0, h⟩) (k5_pay1 (F := F))
  | n + 1, h =>
    if (n + 1) % 4 = 0 then k5_pay2 (ablk5 V c ⟨n + 1, h⟩) (bblk5 V c ⟨n + 1, h⟩) (k5_pay1 (F := F))
    else k5_pay2 (ablk5 V c ⟨n + 1, h⟩) (bblk5 V c ⟨n + 1, h⟩) (acc5 c n (Nat.lt_of_succ_lt h))

theorem acc5_reset (c : Dev nD) (t : Fin cfg5.N) (h0 : t.val % 4 = 0) :
    acc5 V c t.val t.isLt = k5_pay2 (ablk5 V c t) (bblk5 V c t) (k5_pay1 (F := F)) := by
  obtain ⟨n, hn⟩ := t
  cases n with
  | zero => rfl
  | succ n => exact if_pos h0

theorem acc5_step (c : Dev nD) (t : Fin cfg5.N) (h0 : ¬t.val % 4 = 0) :
    acc5 V c t.val t.isLt
      = k5_pay2 (ablk5 V c t) (bblk5 V c t) (acc5 V c (t.val - 1) (Nat.lt_of_le_of_lt (Nat.sub_le _ _) t.isLt)) := by
  obtain ⟨n, hn⟩ := t
  cases n with
  | zero => exact absurd (Nat.zero_mod _) h0
  | succ n => exact if_neg h0

abbrev out5 (c : Dev nD) (n : ℕ) (hn : n < cfg5.N) : Vec F S1024x64 .f32 := (k5_pay3 (acc5 V c n hn))

abbrev scM5 : Memref sig .tc .vmem S1024x64 .f32 := Memref.whole cc5_scratch0

/-- The region's invariant: the general one at this region's accumulator, class invariant and scoped rest. -/
abbrev Phi5 (c : Dev nD) : (n : ℕ) → n ≤ cfg5.N → sProp 𝕄 :=
  Cert.Region.Inv c scM5 (Pipeline.ΦA spec5 c) (Pipeline.scopedRestBut (Ix := Unit) (Name := ℕ) (U := UR sig nD τ) (Lvl := ℕ) (Val := Elt F) spec5 c [cc5_scratch0]) iprop(∃ r, prngReg c r) (acc5 V c)

theorem PhiA5_eq (c : Dev nD) :
    (Pipeline.ΦA spec5 c : sProp 𝕄)
      = iprop(((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 V c t.val t.isLt
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem Phi5_castSucc (c : Dev nD) (t : Fin cfg5.N) :
    (dat5 V c).Φ t.castSucc = Phi5 V c t.val (Nat.le_of_lt t.isLt) := by
  dsimp only [dat5]; simp only [Fin.coe_castSucc]
theorem after5_2 (c : Dev nD) (t : Fin cfg5.N) : (dat5 V c).after 2 t = (k5_pay3 (acc5 V c t.val t.isLt)) := by dsimp only [dat5, out5]
theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

end Region5

section Body5

set_option maxHeartbeats 2000000 in
/-- A step that does not end the reduction: the product is added to zero (step 0) or to what the accumulator held; the output block is not written. -/
theorem sound_kernel5_AB (c : Dev nD) (E : Set ℕ) (i : grid5.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc1 : ¬cond5_1 i)
    (x0 : Vec F S1024x2048 .f32) (x1 : Vec F S2048x64 .f32) (xo s : Vec F S1024x64 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k5_pay2 x0 x1 (if cond5_0 i then k5_pay1 (F := F) else s))) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  by_cases hc0 : cond5_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]

set_option maxHeartbeats 2000000 in
/-- The last step: the product is added to the accumulator, whose maximum with zero is stored as the output block. -/
theorem sound_kernel5_C (c : Dev nD) (E : Set ℕ) (i : grid5.Coords)
    (arg3 : Memref sig .tc .vmem S1024x2048 .f32) (harg3 : arg3.IsWhole) (arg4 : Memref sig .tc .vmem S2048x64 .f32) (harg4 : arg4.IsWhole)
    (arg5 : Memref sig .tc .vmem S1024x64 .f32) (harg5 : arg5.IsWhole) (arg6 : Memref sig .tc .vmem S1024x64 .f32) (harg6 : arg6.IsWhole)
    (hc0 : ¬cond5_0 i) (hc1 : cond5_1 i)
    (x0 : Vec F S1024x2048 .f32) (x1 : Vec F S2048x64 .f32) (s : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k5_pay3 (k5_pay2 x0 x1 s))
            ∗ owns (c : Thread nD τ) arg6 fullShare (k5_pay2 x0 x1 s)) -∗ K ⟨⟩))
      ⊢ wp frame (wpE (defs₀ (F := F)) Variants.none c none) E (cc5__matmul_kernel i arg3 harg3 arg4 harg4 arg5 harg5 arg6 harg6) K := by
  simp only [cc5__matmul_kernel_eq_skeleton]; unfold cc5__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x64_S1024x64_0_0 y⟩),
      View.canon_cons_unit_zero (S := S1024x64) hz]
    simp only [View.readCov_unit_zero (S := S1024x64) _ hz, View.readAt_eq_ld, View.ld_unit_zero (S := S1024x2048) hz, View.ld_unit_zero (S := S2048x64) hz, View.ld_unit_zero (S := S1024x64) hz]
  iexists _; isplitr
  swap; · iexact HS
  ipureintro
  sl_unfold_words
  rw [View.read_writes_eq_canon _ _ _ (fun y => ⟨_, List.mem_cons_self, View.mem_set_unit_zero hz inb_S1024x64_S1024x64_0_0 y⟩),
    View.canon_cons_unit_zero (S := S1024x64) hz]
  simp only [View.readAt_eq_ld, View.ld_unit_zero (S := S1024x2048) hz, View.ld_unit_zero (S := S2048x64) hz, View.ld_unit_zero (S := S1024x64) hz]

end Body5

section Obl5

variable (V : (c : Dev nD) → (b : Ref sig .tc) → Buf (Elt F) ((c : Thread nD τ).loc b))

/-- The body obligation: the general one for an accumulating body, at this region's two step triples and grid facts. -/
theorem body_obligation5 (c : Dev nD) : BodyObligation (dat5 (F := F) V c) (defs₀ (F := F)) Variants.none () Set.univ :=
  .ofAcc (dat5 V c) defs₀ Variants.none ⟨⟩ 0 1 2 bigSep_W5 scM5
    (Pipeline.scopedRestBut (Ix := Unit) (Name := ℕ) (U := UR sig nD τ) (Lvl := ℕ) (Val := Elt F) spec5 c [cc5_scratch0]) iprop(∃ r, prngReg c r)
    (fun t => cond5_0 (grid5.coords t)) (fun t => cond5_1 (grid5.coords t))
    (fun t h1 h0 => by have := (hcond5_0 t).mp h0; have := (hcond5_1 t).mp h1; omega)
    (fun t => acc5 V c t.val t.isLt) k5_pay1 k5_pay2 k5_pay3
    (fun t => by rw [Phi5_castSucc]; exact Cert.Region.Inv_open c scM5 _ _ _ (acc5 V c) (PhiA5_eq c) _ _) (fun _ => rfl)
    (fun t s hs => by
      by_cases h0 : t.val % 4 = 0
      · rw [if_pos ((hcond5_0 t).mpr h0)]; exact acc5_reset V c t h0
      · rw [if_neg (fun h => h0 ((hcond5_0 t).mp h)), hs (fun e => h0 (by rw [e]))]; exact acc5_step V c t h0)
    (before5_0 V c) (before5_1 V c) (fun t _ => after5_2 V c t)
    liveAt5_0 liveAt5_1 liveAt5_2 idleAt5_2 noFlush5_2 (fun _ => rfl)
    (fun t hl => sound_kernel5_AB c Set.univ (grid5.coords t) _ (launch5.stage_whole 0 _) _ (launch5.stage_whole 1 _) _ (launch5.stage_whole 2 _) _ (Memref.isWhole_whole _) hl)
    (fun t hl h0 => sound_kernel5_C c Set.univ (grid5.coords t) _ (launch5.stage_whole 0 _) _ (launch5.stage_whole 1 _) _ (launch5.stage_whole 2 _) _ (Memref.isWhole_whole _) h0 hl)

theorem hin5 (c : Dev nD) : Pipeline.ΦA spec5 c ⊢ (dat5 V c).Φ 0 := by
  rw [show (dat5 V c).Φ 0 = Pipeline.ΦA spec5 c from rfl]

theorem hout5 (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl, PhiA5_eq]
  refine (Cert.Region.Inv_open c scM5 _ _ _ (acc5 V c) (PhiA5_eq c) _ _).trans ?_
  iintro ⟨%s, -, ⟨HS, HB⟩, Hg⟩
  iframe
  iexists _; iexact HS

end Obl5

end Cert.KernelIdeal.Hand

end
-- ==== Proof.Reg6.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev ablk6 (c : Dev nD) (t : Fin cfg6.N) : Vec F S8192x64 .f32 := iblk6 V c 0 t
abbrev bblk6 (c : Dev nD) (t : Fin cfg6.N) : Vec F S64x32 .f32 := iblk6 V c 1 t

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) :=
  (by decide +kernel : ∀ t : Fin grid6.N, cond6_0 (grid6.coords t))
abbrev cond6_1 (i : grid6.Coords) : Prop := k6_cond2 i = 1#1
theorem hcond6_1 : ∀ t : Fin cfg6.N, cond6_1 (grid6.coords t) :=
  (by decide +kernel : ∀ t : Fin grid6.N, cond6_1 (grid6.coords t))

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

abbrev out6 (c : Dev nD) (t : Fin cfg6.N) : Vec F S8192x32 .f32 := k6_pay2 (ablk6 V c t) (bblk6 V c t) (k6_pay1 (F := F))

abbrev scM6 : Memref sig .tc .vmem S8192x32 .f32 := Memref.whole cc6_scratch0

theorem PhiA6_eq (c : Dev nD) :
    (Pipeline.ΦA spec6 c : sProp 𝕄)
      = iprop(((∃ d, owns (c : Thread nD τ) scM6 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = k6_pay2 (ablk6 V c t) (bblk6 V c t) (k6_pay1 (F := F)) := by dsimp only [dat6, out6]
theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

end Region6

section Body6

set_option maxHeartbeats 2000000 in
/-- One reduction step in all: the accumulator is set to zero, receives the product, and is stored as the output block. -/
theorem sound_kernel6_D (c : Dev nD) (E : Set ℕ) (i : grid6.Coords)
    (arg3 : Memref sig .tc .vmem S8192x64 .f32) (harg3 : arg3.IsWhole) (arg4 : Memref sig .tc .vmem S64x32 .f32) (harg4 : arg4.IsWhole)
    (arg5 : Memref sig .tc .vmem S8192x32 .f32) (harg5 : arg5.IsWhole) (arg6 : Memref sig .tc .vmem S8192x32 .f32) (harg6 : arg6.IsWhole)
    (hc0 : cond6_0 i) (hc1 : cond6_1 i)
    (x0 : Vec F S8192x64 .f32) (x1 : Vec F S64x32 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k6_pay2 x0 x1 (k6_pay1 (F := F)))
            ∗ (∃ d, owns (c : Thread nD τ) arg6 fullShare d)) -∗ K ⟨⟩))
      ⊢ wp frame (wpE (defs₀ (F := F)) Variants.none c none) E (cc6__matmul_kernel i arg3 harg3 arg4 harg4 arg5 harg5 arg6 harg6) K := by
  simp only [cc6__matmul_kernel_eq_skeleton]; unfold cc6__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S8192x32_S8192x32_0_0 y⟩),
      View.canon_cons_unit_zero (S := S8192x32) hz]
    simp only [View.readAt_eq_ld, View.ld_unit_zero (S := S8192x64) hz, View.ld_unit_zero (S := S64x32) hz, View.ld_unit_zero (S := S8192x32) hz]
    rw [View.readCov_eq_canon_ld _ _ _ (fun y => ⟨_, List.mem_cons_self, View.mem_set_unit_zero hz inb_S8192x32_S8192x32_0_0 y⟩),
      View.canon_cons_unit_zero (S := S8192x32) hz, View.ld_unit_zero (S := S8192x32) hz]
    rw [View.readCov_unit_zero (S := S8192x32) _ hz]
  iexists _; iexists _; isplitr
  swap; · iexact HS
  ipureintro; rfl

end Body6

section Obl6

variable (V : (c : Dev nD) → (b : Ref sig .tc) → Buf (Elt F) ((c : Thread nD τ).loc b))

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4000000 in
/-- The body at any point: nothing is carried from one point to the next. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Pipeline.ΦA spec6 c from rfl, show (dat6 V c).Φ t.castSucc = Pipeline.ΦA spec6 c from rfl, PhiA6_eq]
  rw [Cert.Region.leavesExact_live (dat6 V c) 0 t (liveAt6_0 t), after6_0]
  rw [Cert.Region.leavesExact_live (dat6 V c) 1 t (liveAt6_1 t), after6_1]
  rw [Cert.Region.leavesExact_live (dat6 V c) 2 t (liveAt6_2 t), after6_2]
  iintro ⟨⟨⟨HS, HB⟩, Hg⟩, Ho, ⟨%d0, H0⟩, ⟨%d1, H1⟩, ⟨%d2, H2⟩⟩
  iapply (sound_kernel6_D c Set.univ (grid6.coords t) _ _ _ _ _ _ _ _ (hcond6_0 t) (hcond6_1 t) (ablk6 V c t) (bblk6 V c t) _)
  iframe H0 H1
  isplitl [H2]; · iexists _; iexact H2
  iframe HS
  iintro ⟨H0, H1, H2, HS⟩
  iframe

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := Idealize.SL.BI.Entails.refl _
theorem hout6 (c : Dev nD) : (dat6 V c).Φ (Fin.last cfg6.N) ⊢ Pipeline.ΦA spec6 c := Idealize.SL.BI.Entails.refl _

end Obl6

end Cert.KernelIdeal.Hand

end
-- ==== Proof.Reg7.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import proofs.«145789_j53678501266189_1_alg».proof.Proof.LibBodyAcc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev ablk7 (c : Dev nD) (t : Fin cfg7.N) : Vec F S1024x2048 .f32 := iblk7 V c 0 t
abbrev bblk7 (c : Dev nD) (t : Fin cfg7.N) : Vec F S2048x32 .f32 := iblk7 V c 1 t

abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → cfg7.idle 2 (grid7.coords t) = false := by decide +kernel

/-- The accumulator after point n: the point's block product added to zero at reduction step 0, to what the point before left otherwise. -/
def acc7 (c : Dev nD) : (n : ℕ) → n < cfg7.N → Vec F S1024x32 .f32
  | 0, h => k7_pay2 (ablk7 V c ⟨0, h⟩) (bblk7 V c ⟨0, h⟩) (k7_pay1 (F := F))
  | n + 1, h =>
    if (n + 1) % 4 = 0 then k7_pay2 (ablk7 V c ⟨n + 1, h⟩) (bblk7 V c ⟨n + 1, h⟩) (k7_pay1 (F := F))
    else k7_pay2 (ablk7 V c ⟨n + 1, h⟩) (bblk7 V c ⟨n + 1, h⟩) (acc7 c n (Nat.lt_of_succ_lt h))

theorem acc7_reset (c : Dev nD) (t : Fin cfg7.N) (h0 : t.val % 4 = 0) :
    acc7 V c t.val t.isLt = k7_pay2 (ablk7 V c t) (bblk7 V c t) (k7_pay1 (F := F)) := by
  obtain ⟨n, hn⟩ := t
  cases n with
  | zero => rfl
  | succ n => exact if_pos h0

theorem acc7_step (c : Dev nD) (t : Fin cfg7.N) (h0 : ¬t.val % 4 = 0) :
    acc7 V c t.val t.isLt
      = k7_pay2 (ablk7 V c t) (bblk7 V c t) (acc7 V c (t.val - 1) (Nat.lt_of_le_of_lt (Nat.sub_le _ _) t.isLt)) := by
  obtain ⟨n, hn⟩ := t
  cases n with
  | zero => exact absurd (Nat.zero_mod _) h0
  | succ n => exact if_neg h0

abbrev out7 (c : Dev nD) (n : ℕ) (hn : n < cfg7.N) : Vec F S1024x32 .f32 := (acc7 V c n hn)

abbrev scM7 : Memref sig .tc .vmem S1024x32 .f32 := Memref.whole cc7_scratch0

/-- The region's invariant: the general one at this region's accumulator, class invariant and scoped rest. -/
abbrev Phi7 (c : Dev nD) : (n : ℕ) → n ≤ cfg7.N → sProp 𝕄 :=
  Cert.Region.Inv c scM7 (Pipeline.ΦA spec7 c) (Pipeline.scopedRestBut (Ix := Unit) (Name := ℕ) (U := UR sig nD τ) (Lvl := ℕ) (Val := Elt F) spec7 c [cc7_scratch0]) iprop(∃ r, prngReg c r) (acc7 V c)

theorem PhiA7_eq (c : Dev nD) :
    (Pipeline.ΦA spec7 c : sProp 𝕄)
      = iprop(((∃ d, owns (c : Thread nD τ) scM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem Phi7_castSucc (c : Dev nD) (t : Fin cfg7.N) :
    (dat7 V c).Φ t.castSucc = Phi7 V c t.val (Nat.le_of_lt t.isLt) := by
  dsimp only [dat7]; simp only [Fin.coe_castSucc]
theorem after7_2 (c : Dev nD) (t : Fin cfg7.N) : (dat7 V c).after 2 t = (acc7 V c t.val t.isLt) := by dsimp only [dat7, out7]
theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

end Region7

section Body7

set_option maxHeartbeats 2000000 in
/-- A step that does not end the reduction: the product is added to zero (step 0) or to what the accumulator held; the output block is not written. -/
theorem sound_kernel7_AB (c : Dev nD) (E : Set ℕ) (i : grid7.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc1 : ¬cond7_1 i)
    (x0 : Vec F S1024x2048 .f32) (x1 : Vec F S2048x32 .f32) (xo s : Vec F S1024x32 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k7_pay2 x0 x1 (if cond7_0 i then k7_pay1 (F := F) else s))) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  by_cases hc0 : cond7_0 i <;> (first | rw [if_pos hc0] | rw [if_neg hc0]) <;>
  · iintro ⟨⟨%f0, %hf0, H0⟩, ⟨%f1, %hf1, H1⟩, ⟨%fo, %hfo, Ho⟩, ⟨%fs, %hfs, HS⟩, Hk⟩
    subst hf0; subst hf1; subst hfo; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [Ho]
    · iexists fo; isplitr; · ipureintro; rfl
      iexact Ho
    iexists _; isplitr
    swap; · iexact HS
    ipureintro
    sl_unfold_words
    have hz : (![0, 0] : Fin 2 → Nat) = fun _ => 0 := by funext a; fin_cases a <;> rfl
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]

set_option maxHeartbeats 2000000 in
/-- The last step: the product is added to the accumulator, which is stored as the output block. -/
theorem sound_kernel7_C (c : Dev nD) (E : Set ℕ) (i : grid7.Coords)
    (arg3 : Memref sig .tc .vmem S1024x2048 .f32) (harg3 : arg3.IsWhole) (arg4 : Memref sig .tc .vmem S2048x32 .f32) (harg4 : arg4.IsWhole)
    (arg5 : Memref sig .tc .vmem S1024x32 .f32) (harg5 : arg5.IsWhole) (arg6 : Memref sig .tc .vmem S1024x32 .f32) (harg6 : arg6.IsWhole)
    (hc0 : ¬cond7_0 i) (hc1 : cond7_1 i)
    (x0 : Vec F S1024x2048 .f32) (x1 : Vec F S2048x32 .f32) (s : Vec F S1024x32 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1 ∗ owns (c : Thread nD τ) arg5 fullShare (k7_pay2 x0 x1 s)
            ∗ owns (c : Thread nD τ) arg6 fullShare (k7_pay2 x0 x1 s)) -∗ K ⟨⟩))
      ⊢ wp frame (wpE (defs₀ (F := F)) Variants.none c none) E (cc7__matmul_kernel i arg3 harg3 arg4 harg4 arg5 harg5 arg6 harg6) K := by
  simp only [cc7__matmul_kernel_eq_skeleton]; unfold cc7__matmul_kernel_skel
  unfold owns
  iintro ⟨⟨%f0, %hf0, H0⟩, ⟨%f1, %hf1, H1⟩, ⟨%d2, %fo, -, Ho⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x32_S1024x32_0_0 y⟩),
      View.canon_cons_unit_zero (S := S1024x32) hz]
    simp only [View.readCov_unit_zero (S := S1024x32) _ hz, View.readAt_eq_ld, View.ld_unit_zero (S := S1024x2048) hz, View.ld_unit_zero (S := S2048x32) hz, View.ld_unit_zero (S := S1024x32) hz]
  iexists _; isplitr
  swap; · iexact HS
  ipureintro
  sl_unfold_words
  rw [View.read_writes_eq_canon _ _ _ (fun y => ⟨_, List.mem_cons_self, View.mem_set_unit_zero hz inb_S1024x32_S1024x32_0_0 y⟩),
    View.canon_cons_unit_zero (S := S1024x32) hz]
  simp only [View.readAt_eq_ld, View.ld_unit_zero (S := S1024x2048) hz, View.ld_unit_zero (S := S2048x32) hz, View.ld_unit_zero (S := S1024x32) hz]

end Body7

section Obl7

variable (V : (c : Dev nD) → (b : Ref sig .tc) → Buf (Elt F) ((c : Thread nD τ).loc b))

/-- The body obligation: the general one for an accumulating body, at this region's two step triples and grid facts. -/
theorem body_obligation7 (c : Dev nD) : BodyObligation (dat7 (F := F) V c) (defs₀ (F := F)) Variants.none () Set.univ :=
  .ofAcc (dat7 V c) defs₀ Variants.none ⟨⟩ 0 1 2 bigSep_W7 scM7
    (Pipeline.scopedRestBut (Ix := Unit) (Name := ℕ) (U := UR sig nD τ) (Lvl := ℕ) (Val := Elt F) spec7 c [cc7_scratch0]) iprop(∃ r, prngReg c r)
    (fun t => cond7_0 (grid7.coords t)) (fun t => cond7_1 (grid7.coords t))
    (fun t h1 h0 => by have := (hcond7_0 t).mp h0; have := (hcond7_1 t).mp h1; omega)
    (fun t => acc7 V c t.val t.isLt) k7_pay1 k7_pay2 id
    (fun t => by rw [Phi7_castSucc]; exact Cert.Region.Inv_open c scM7 _ _ _ (acc7 V c) (PhiA7_eq c) _ _) (fun _ => rfl)
    (fun t s hs => by
      by_cases h0 : t.val % 4 = 0
      · rw [if_pos ((hcond7_0 t).mpr h0)]; exact acc7_reset V c t h0
      · rw [if_neg (fun h => h0 ((hcond7_0 t).mp h)), hs (fun e => h0 (by rw [e]))]; exact acc7_step V c t h0)
    (before7_0 V c) (before7_1 V c) (fun t _ => after7_2 V c t)
    liveAt7_0 liveAt7_1 liveAt7_2 idleAt7_2 noFlush7_2 (fun _ => rfl)
    (fun t hl => sound_kernel7_AB c Set.univ (grid7.coords t) _ (launch7.stage_whole 0 _) _ (launch7.stage_whole 1 _) _ (launch7.stage_whole 2 _) _ (Memref.isWhole_whole _) hl)
    (fun t hl h0 => sound_kernel7_C c Set.univ (grid7.coords t) _ (launch7.stage_whole 0 _) _ (launch7.stage_whole 1 _) _ (launch7.stage_whole 2 _) _ (Memref.isWhole_whole _) h0 hl)

theorem hin7 (c : Dev nD) : Pipeline.ΦA spec7 c ⊢ (dat7 V c).Φ 0 := by
  rw [show (dat7 V c).Φ 0 = Pipeline.ΦA spec7 c from rfl]

theorem hout7 (c : Dev nD) : (dat7 V c).Φ (Fin.last cfg7.N) ⊢ Pipeline.ΦA spec7 c := by
  rw [show (dat7 V c).Φ (Fin.last cfg7.N) = Phi7 V c (Fin.last cfg7.N).val (Nat.le_of_lt_succ (Fin.last cfg7.N).isLt) from rfl, PhiA7_eq]
  refine (Cert.Region.Inv_open c scM7 _ _ _ (acc7 V c) (PhiA7_eq c) _ _).trans ?_
  iintro ⟨%s, -, ⟨HS, HB⟩, Hg⟩
  iframe
  iexists _; iexact HS

end Obl7

end Cert.KernelIdeal.Hand

end
-- ==== Proof.Reg8.lean ====
import proofs.«145789_j53678501266189_1_alg».proof.Proof.Gen.KernelIdeal.Launch
import proofs.«145789_j53678501266189_1_alg».proof.Proof.Gen.KernelIdeal.Skeleton
import proofs.«145789_j53678501266189_1_alg».proof.Proof.Gen.KernelIdeal.Points
import proofs.«145789_j53678501266189_1_alg».proof.Proof.LibLive
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev ablk8 (c : Dev nD) (t : Fin cfg8.N) : Vec F S1024x32 .f32 := iblk8 V c 0 t
abbrev bblk8 (c : Dev nD) (t : Fin cfg8.N) : Vec F S32x2048 .f32 := iblk8 V c 1 t

abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) :=
  (by decide +kernel : ∀ t : Fin grid8.N, cond8_0 (grid8.coords t))
abbrev cond8_1 (i : grid8.Coords) : Prop := k8_cond2 i = 1#1
theorem hcond8_1 : ∀ t : Fin cfg8.N, cond8_1 (grid8.coords t) :=
  (by decide +kernel : ∀ t : Fin grid8.N, cond8_1 (grid8.coords t))

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel

abbrev out8 (c : Dev nD) (t : Fin cfg8.N) : Vec F S1024x2048 .f32 := k8_pay2 (ablk8 V c t) (bblk8 V c t) (k8_pay1 (F := F))

abbrev scM8 : Memref sig .tc .vmem S1024x2048 .f32 := Memref.whole cc8_scratch0

theorem PhiA8_eq (c : Dev nD) :
    (Pipeline.ΦA spec8 c : sProp 𝕄)
      = iprop(((∃ d, owns (c : Thread nD τ) scM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = k8_pay2 (ablk8 V c t) (bblk8 V c t) (k8_pay1 (F := F)) := by dsimp only [dat8, out8]
theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl

end Region8

section Body8

set_option maxHeartbeats 2000000 in
/-- One reduction step in all: the accumulator is set to zero, receives the product, and is stored as the output block. -/
theorem sound_kernel8_D (c : Dev nD) (E : Set ℕ) (i : grid8.Coords)
    (arg3 : Memref sig .tc .vmem S1024x32 .f32) (harg3 : arg3.IsWhole) (arg4 : Memref sig .tc .vmem S32x2048 .f32) (harg4 : arg4.IsWhole)
    (arg5 : Memref sig .tc .vmem S1024x2048 .f32) (harg5 : arg5.IsWhole) (arg6 : Memref sig .tc .vmem S1024x2048 .f32) (harg6 : arg6.IsWhole)
    (hc0 : cond8_0 i) (hc1 : cond8_1 i)
    (x0 : Vec F S1024x32 .f32) (x1 : Vec F S32x2048 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1 ∗ owns (c : Thread nD τ) arg5 fullShare (k8_pay2 x0 x1 (k8_pay1 (F := F)))
            ∗ (∃ d, owns (c : Thread nD τ) arg6 fullShare d)) -∗ K ⟨⟩))
      ⊢ wp frame (wpE (defs₀ (F := F)) Variants.none c none) E (cc8__matmul_kernel i arg3 harg3 arg4 harg4 arg5 harg5 arg6 harg6) K := by
  simp only [cc8__matmul_kernel_eq_skeleton]; unfold cc8__matmul_kernel_skel
  unfold owns
  iintro ⟨⟨%f0, %hf0, H0⟩, ⟨%f1, %hf1, H1⟩, ⟨%d2, %fo, -, Ho⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  have hz : (![0, 0] : Fin 2 → Nat) = fun _ => 0 := by funext a; fin_cases a <;> rfl
  isplitl [Ho]
  · iexists _; isplitr
    swap; · iexact Ho
    ipureintro
    sl_unfold_words
    rw [View.read_writes_eq_canon _ _ _ (fun y => ⟨_, List.mem_cons_self, View.mem_set_unit_zero hz inb_S1024x2048_S1024x2048_0_0 y⟩),
      View.canon_cons_unit_zero (S := S1024x2048) hz]
    simp only [View.readAt_eq_ld, View.ld_unit_zero (S := S1024x32) hz, View.ld_unit_zero (S := S32x2048) hz, View.ld_unit_zero (S := S1024x2048) hz]
    rw [View.readCov_eq_canon_ld _ _ _ (fun y => ⟨_, List.mem_cons_self, View.mem_set_unit_zero hz inb_S1024x2048_S1024x2048_0_0 y⟩),
      View.canon_cons_unit_zero (S := S1024x2048) hz, View.ld_unit_zero (S := S1024x2048) hz]
    rw [View.readCov_unit_zero (S := S1024x2048) _ hz]
  iexists _; iexists _; isplitr
  swap; · iexact HS
  ipureintro; rfl

end Body8

section Obl8

variable (V : (c : Dev nD) → (b : Ref sig .tc) → Buf (Elt F) ((c : Thread nD τ).loc b))

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in
/-- The body at any point: nothing is carried from one point to the next. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = Pipeline.ΦA spec8 c from rfl, show (dat8 V c).Φ t.castSucc = Pipeline.ΦA spec8 c from rfl, PhiA8_eq]
  rw [Cert.Region.leavesExact_live (dat8 V c) 0 t (liveAt8_0 t), after8_0]
  rw [Cert.Region.leavesExact_live (dat8 V c) 1 t (liveAt8_1 t), after8_1]
  rw [Cert.Region.leavesExact_live (dat8 V c) 2 t (liveAt8_2 t), after8_2]
  iintro ⟨⟨⟨HS, HB⟩, Hg⟩, Ho, ⟨%d0, H0⟩, ⟨%d1, H1⟩, ⟨%d2, H2⟩⟩
  iapply (sound_kernel8_D c Set.univ (grid8.coords t) _ _ _ _ _ _ _ _ (hcond8_0 t) (hcond8_1 t) (ablk8 V c t) (bblk8 V c t) _)
  iframe H0 H1
  isplitl [H2]; · iexists _; iexact H2
  iframe HS
  iintro ⟨H0, H1, H2, HS⟩
  iframe

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := Idealize.SL.BI.Entails.refl _
theorem hout8 (c : Dev nD) : (dat8 V c).Φ (Fin.last cfg8.N) ⊢ Pipeline.ΦA spec8 c := Idealize.SL.BI.Entails.refl _

end Obl8

end Cert.KernelIdeal.Hand

end
-- ==== Proof.RunData.lean ====
import proofs.«145789_j53678501266189_1_alg».proof.Proof.Reg0
import proofs.«145789_j53678501266189_1_alg».proof.Proof.Reg1
import proofs.«145789_j53678501266189_1_alg».proof.Proof.Reg2
import proofs.«145789_j53678501266189_1_alg».proof.Proof.Reg3
import proofs.«145789_j53678501266189_1_alg».proof.Proof.Reg4
import proofs.«145789_j53678501266189_1_alg».proof.Proof.Reg5
import proofs.«145789_j53678501266189_1_alg».proof.Proof.Reg6
import proofs.«145789_j53678501266189_1_alg».proof.Proof.Reg7
import proofs.«145789_j53678501266189_1_alg».proof.Proof.Reg8
import proofs.«145789_j53678501266189_1_alg».proof.Proof.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between two items of @main every unscoped buffer of a core is held at a valuation: the launch memory, then each region's output array replaced by what it wrote back, each host stretch applied. -/
def W0 (c : Dev nD) : Valuation τ sig (Elt F) := fun b => m (c, b)

abbrev U0 : (c : Dev nD) → (b : Ref sig .tc) → Buf (Elt F) ((c : Thread nD τ).loc b) := fun c b => W0 m c b

def o0 (c : Dev nD) : Buf (Elt F) ((c : Thread nD τ).loc main_v0) := (dat0 (U0 m) c).arrAt 2 cfg0.N

def W1 (c : Dev nD) : Valuation τ sig (Elt F) := Function.update (W0 m c) main_v0 (o0 m c)
abbrev U1 : (c : Dev nD) → (b : Ref sig .tc) → Buf (Elt F) ((c : Thread nD τ).loc b) := fun c b => W1 m c b

def o1 (c : Dev nD) : Buf (Elt F) ((c : Thread nD τ).loc main_v1) := (dat1 (U1 m) c).arrAt 2 cfg1.N

def W2 (c : Dev nD) : Valuation τ sig (Elt F) := Function.update (W1 m c) main_v1 (o1 m c)
abbrev U2 : (c : Dev nD) → (b : Ref sig .tc) → Buf (Elt F) ((c : Thread nD τ).loc b) := fun c b => W2 m c b

def o2 (c : Dev nD) : Buf (Elt F) ((c : Thread nD τ).loc main_v2) := (dat2 (U2 m) c).arrAt 2 cfg2.N

def W3 (c : Dev nD) : Valuation τ sig (Elt F) := Function.update (W2 m c) main_v2 (o2 m c)
abbrev U3 : (c : Dev nD) → (b : Ref sig .tc) → Buf (Elt F) ((c : Thread nD τ).loc b) := fun c b => W3 m c b

def o3 (c : Dev nD) : Buf (Elt F) ((c : Thread nD τ).loc main_v3) := (dat3 (U3 m) c).arrAt 2 cfg3.N

def W4 (c : Dev nD) : Valuation τ sig (Elt F) := Function.update (W3 m c) main_v3 (o3 m c)
abbrev U4 : (c : Dev nD) → (b : Ref sig .tc) → Buf (Elt F) ((c : Thread nD τ).loc b) := fun c b => W4 m c b

def o4 (c : Dev nD) : Buf (Elt F) ((c : Thread nD τ).loc main_v4) := (dat4 (U4 m) c).arrAt 2 cfg4.N

def W5 (c : Dev nD) : Valuation τ sig (Elt F) := Function.update (W4 m c) main_v4 (o4 m c)
abbrev U5 : (c : Dev nD) → (b : Ref sig .tc) → Buf (Elt F) ((c : Thread nD τ).loc b) := fun c b => W5 m c b

def o5 (c : Dev nD) : Buf (Elt F) ((c : Thread nD τ).loc main_v5) := (dat5 (U5 m) c).arrAt 2 cfg5.N

def W6 (c : Dev nD) : Valuation τ sig (Elt F) := Function.update (W5 m c) main_v5 (o5 m c)
abbrev U6 : (c : Dev nD) → (b : Ref sig .tc) → Buf (Elt F) ((c : Thread nD τ).loc b) := fun c b => W6 m c b

def o6 (c : Dev nD) : Buf (Elt F) ((c : Thread nD τ).loc main_v6) := (dat6 (U6 m) c).arrAt 2 cfg6.N

def W7 (c : Dev nD) : Valuation τ sig (Elt F) := Function.update (W6 m c) main_v6 (o6 m c)
abbrev U7 : (c : Dev nD) → (b : Ref sig .tc) → Buf (Elt F) ((c : Thread nD τ).loc b) := fun c b => W7 m c b

def o7 (c : Dev nD) : Buf (Elt F) ((c : Thread nD τ).loc main_v7) := (dat7 (U7 m) c).arrAt 2 cfg7.N

def W8 (c : Dev nD) : Valuation τ sig (Elt F) := Function.update (W7 m c) main_v7 (o7 m c)
abbrev U8 : (c : Dev nD) → (b : Ref sig .tc) → Buf (Elt F) ((c : Thread nD τ).loc b) := fun c b => W8 m c b

def W9 (c : Dev nD) : Valuation τ sig (Elt F) := StableHlo.after hostOps8 (W8 m c)
abbrev U9 : (c : Dev nD) → (b : Ref sig .tc) → Buf (Elt F) ((c : Thread nD τ).loc b) := fun c b => W9 m c b

def o8 (c : Dev nD) : Buf (Elt F) ((c : Thread nD τ).loc main_v9) := (dat8 (U9 m) c).arrAt 2 cfg8.N

def W10 (c : Dev nD) : Valuation τ sig (Elt F) := Function.update (W9 m c) main_v9 (o8 m c)
abbrev U10 : (c : Dev nD) → (b : Ref sig .tc) → Buf (Elt F) ((c : Thread nD τ).loc b) := fun c b => W10 m c b

def W11 (c : Dev nD) : Valuation τ sig (Elt F) := StableHlo.after hostOps9 (W10 m c)
abbrev U11 : (c : Dev nD) → (b : Ref sig .tc) → Buf (Elt F) ((c : Thread nD τ).loc b) := fun c b => W11 m c b

/-- The same contents in the form the conditional run reads them: after item J, buffer r of core c. -/
def outs : Outs (F := F) := fun J r c => match J with
  | 1 => W1 m c r | 2 => W2 m c r | 3 => W3 m c r | 4 => W4 m c r | 5 => W5 m c r
  | 6 => W6 m c r | 7 => W7 m c r | 8 => W8 m c r | 10 => W10 m c r | _ => W0 m c r

theorem V0_eq (c : Dev nD) : V0 m c = W0 m c := rfl
theorem V1_eq (c : Dev nD) : V1 m (outs m) c = W1 m c := by
  show Function.update (V0 m c) main_v0 (W1 m c main_v0) = W1 m c
  rw [V0_eq]; unfold W1; rw [Function.update_self]
theorem V2_eq (c : Dev nD) : V2 m (outs m) c = W2 m c := by
  show Function.update (V1 m (outs m) c) main_v1 (W2 m c main_v1) = W2 m c
  rw [V1_eq]; unfold W2; rw [Function.update_self]
theorem V3_eq (c : Dev nD) : V3 m (outs m) c = W3 m c := by
  show Function.update (V2 m (outs m) c) main_v2 (W3 m c main_v2) = W3 m c
  rw [V2_eq]; unfold W3; rw [Function.update_self]
theorem V4_eq (c : Dev nD) : V4 m (outs m) c = W4 m c := by
  show Function.update (V3 m (outs m) c) main_v3 (W4 m c main_v3) = W4 m c
  rw [V3_eq]; unfold W4; rw [Function.update_self]
theorem V5_eq (c : Dev nD) : V5 m (outs m) c = W5 m c := by
  show Function.update (V4 m (outs m) c) main_v4 (W5 m c main_v4) = W5 m c
  rw [V4_eq]; unfold W5; rw [Function.update_self]
theorem V6_eq (c : Dev nD) : V6 m (outs m) c = W6 m c := by
  show Function.update (V5 m (outs m) c) main_v5 (W6 m c main_v5) = W6 m c
  rw [V5_eq]; unfold W6; rw [Function.update_self]
theorem V7_eq (c : Dev nD) : V7 m (outs m) c = W7 m c := by
  show Function.update (V6 m (outs m) c) main_v6 (W7 m c main_v6) = W7 m c
  rw [V6_eq]; unfold W7; rw [Function.update_self]
theorem V8_eq (c : Dev nD) : V8 m (outs m) c = W8 m c := by
  show Function.update (V7 m (outs m) c) main_v7 (W8 m c main_v7) = W8 m c
  rw [V7_eq]; unfold W8; rw [Function.update_self]
theorem V9_eq (c : Dev nD) : V9 m (outs m) c = W9 m c := by
  show StableHlo.after hostOps8 (V8 m (outs m) c) = W9 m c
  rw [V8_eq]; rfl
theorem V10_eq (c : Dev nD) : V10 m (outs m) c = W10 m c := by
  show Function.update (V9 m (outs m) c) main_v9 (W10 m c main_v9) = W10 m c
  rw [V9_eq]; unfold W10; rw [Function.update_self]
theorem V11_eq (c : Dev nD) : V11 m (outs m) c = W11 m c := by
  show StableHlo.after hostOps9 (V10 m (outs m) c) = W11 m c
  rw [V10_eq]; rfl

abbrev p0 : Fin 9 := 0
abbrev p1 : Fin 9 := 1
abbrev p2 : Fin 9 := 2
abbrev p3 : Fin 9 := 3
abbrev p4 : Fin 9 := 4
abbrev p5 : Fin 9 := 5
abbrev p6 : Fin 9 := 6
abbrev p7 : Fin 9 := 7
abbrev p8 : Fin 9 := 8

/-- Every region's proof data, each at its entry valuation. -/
def pdats : (p : Fin 9) → (c : Dev nD) → Dat τ (Elt F) Unit ℕ (UR sig nD τ) ℕ (cfgs p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
  | ⟨5, _⟩ => fun c => dat5 (U5 m) c
  | ⟨6, _⟩ => fun c => dat6 (U6 m) c
  | ⟨7, _⟩ => fun c => dat7 (U7 m) c
  | ⟨8, _⟩ => fun c => dat8 (U9 m) c

abbrev L : GSem nD τ sig → Finset Unit := fun _ => ∅
abbrev lv : GSem nD τ sig → Unit → ℕ := fun _ _ => 0

abbrev Rr (c : Dev nD) : sProp 𝕄 := iprop((∃ r, prngReg c r) ∗ ∃ W, owes (c : Thread nD τ) (0 : CellTallies nD τ sig Unit) W)

end Cert.KernelIdeal.Hand

end
-- ==== Proof.Seg0.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 0 takes the buffers at `W0` to `W1`, which is `W0` updated at its output array: windows 0 and 1 are inputs. -/
noncomputable def reg0 : Pipeline.RegionSeg (pcfgs (F := F)) adm (pdats m) () defs₀ Variants.none L lv p0 :=
  .ofHeld cfgs (pdats m) _ _ L lv launch0 (W0 m) (W1 m) 2 (fun _ => rfl) (body_obligation0 (U0 m)) (fun _ _ => rfl) (fun _ _ => rfl)
    (fun _ => rfl) (A_eq0 (U0 m)) (by decide) (hin0 (U0 m)) (hout0 (U0 m))

end Cert.KernelIdeal.Hand
-- ==== Proof.Seg1.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 1 takes the buffers at `W1` to `W2`, which is `W1` updated at its output array: windows 0 and 1 are inputs. -/
noncomputable def reg1 : Pipeline.RegionSeg (pcfgs (F := F)) adm (pdats m) () defs₀ Variants.none L lv p1 :=
  .ofHeld cfgs (pdats m) _ _ L lv launch1 (W1 m) (W2 m) 2 (fun _ => rfl) (body_obligation1 (U1 m)) (fun _ _ => rfl) (fun _ _ => rfl)
    (fun _ => rfl) (A_eq1 (U1 m)) (by decide) (hin1 (U1 m)) (hout1 (U1 m))

end Cert.KernelIdeal.Hand
-- ==== Proof.Seg2.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 2 takes the buffers at `W2` to `W3`, which is `W2` updated at its output array: windows 0 and 1 are inputs. -/
noncomputable def reg2 : Pipeline.RegionSeg (pcfgs (F := F)) adm (pdats m) () defs₀ Variants.none L lv p2 :=
  .ofHeld cfgs (pdats m) _ _ L lv launch2 (W2 m) (W3 m) 2 (fun _ => rfl) (body_obligation2 (U2 m)) (fun _ _ => rfl) (fun _ _ => rfl)
    (fun _ => rfl) (A_eq2 (U2 m)) (by decide) (hin2 (U2 m)) (hout2 (U2 m))

end Cert.KernelIdeal.Hand
-- ==== Proof.Seg3.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 3 takes the buffers at `W3` to `W4`, which is `W3` updated at its output array: windows 0 and 1 are inputs. -/
noncomputable def reg3 : Pipeline.RegionSeg (pcfgs (F := F)) adm (pdats m) () defs₀ Variants.none L lv p3 :=
  .ofHeld cfgs (pdats m) _ _ L lv launch3 (W3 m) (W4 m) 2 (fun _ => rfl) (body_obligation3 (U3 m)) (fun _ _ => rfl) (fun _ _ => rfl)
    (fun _ => rfl) (A_eq3 (U3 m)) (by decide) (hin3 (U3 m)) (hout3 (U3 m))

end Cert.KernelIdeal.Hand
-- ==== Proof.Seg4.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 4 takes the buffers at `W4` to `W5`, which is `W4` updated at its output array: windows 0 and 1 are inputs. -/
noncomputable def reg4 : Pipeline.RegionSeg (pcfgs (F := F)) adm (pdats m) () defs₀ Variants.none L lv p4 :=
  .ofHeld cfgs (pdats m) _ _ L lv launch4 (W4 m) (W5 m) 2 (fun _ => rfl) (body_obligation4 (U4 m)) (fun _ _ => rfl) (fun _ _ => rfl)
    (fun _ => rfl) (A_eq4 (U4 m)) (by decide) (hin4 (U4 m)) (hout4 (U4 m))

end Cert.KernelIdeal.Hand
-- ==== Proof.Seg5.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 5 takes the buffers at `W5` to `W6`, which is `W5` updated at its output array: windows 0 and 1 are inputs. -/
noncomputable def reg5 : Pipeline.RegionSeg (pcfgs (F := F)) adm (pdats m) () defs₀ Variants.none L lv p5 :=
  .ofHeld cfgs (pdats m) _ _ L lv launch5 (W5 m) (W6 m) 2 (fun _ => rfl) (body_obligation5 (U5 m)) (fun _ _ => rfl) (fun _ _ => rfl)
    (fun _ => rfl) (A_eq5 (U5 m)) (by decide) (hin5 (U5 m)) (hout5 (U5 m))

end Cert.KernelIdeal.Hand
-- ==== Proof.Seg6.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 6 takes the buffers at `W6` to `W7`, which is `W6` updated at its output array: windows 0 and 1 are inputs. -/
noncomputable def reg6 : Pipeline.RegionSeg (pcfgs (F := F)) adm (pdats m) () defs₀ Variants.none L lv p6 :=
  .ofHeld cfgs (pdats m) _ _ L lv launch6 (W6 m) (W7 m) 2 (fun _ => rfl) (body_obligation6 (U6 m)) (fun _ _ => rfl) (fun _ _ => rfl)
    (fun _ => rfl) (A_eq6 (U6 m)) (by decide) (hin6 (U6 m)) (hout6 (U6 m))

end Cert.KernelIdeal.Hand
-- ==== Proof.Seg7.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 7 takes the buffers at `W7` to `W8`, which is `W7` updated at its output array: windows 0 and 1 are inputs. -/
noncomputable def reg7 : Pipeline.RegionSeg (pcfgs (F := F)) adm (pdats m) () defs₀ Variants.none L lv p7 :=
  .ofHeld cfgs (pdats m) _ _ L lv launch7 (W7 m) (W8 m) 2 (fun _ => rfl) (body_obligation7 (U7 m)) (fun _ _ => rfl) (fun _ _ => rfl)
    (fun _ => rfl) (A_eq7 (U7 m)) (by decide) (hin7 (U7 m)) (hout7 (U7 m))

end Cert.KernelIdeal.Hand
-- ==== Proof.Seg8.lean ====
import proofs.«145789_j53678501266189_1_alg».proof.Proof.RunData
import proofs.«145789_j53678501266189_1_alg».proof.Proof.LibRegionHeld

namespace Cert.KernelIdeal.Hand

open Cert.KernelIdeal Cert.KernelIdeal.Gen Idealize.ShloMosaic

variable {F : FTy → Type} [FloatOps F] (m : (ℓ : Loc nD τ sig) → Buf (Elt F) ℓ)

/-- Region 8 takes the buffers at `W9` to `W10`, which is `W9` updated at its output array: windows 0 and 1 are inputs. -/
noncomputable def reg8 : Pipeline.RegionSeg (pcfgs (F := F)) adm (pdats m) () defs₀ Variants.none L lv p8 :=
  .ofHeld cfgs (pdats m) _ _ L lv launch8 (W9 m) (W10 m) 2 (fun _ => rfl) (body_obligation8 (U9 m)) (fun _ _ => rfl) (fun _ _ => rfl)
    (fun _ => rfl) (A_eq8 (U9 m)) (by decide) (hin8 (U9 m)) (hout8 (U9 m))

end Cert.KernelIdeal.Hand
-- ==== Proof.Run.lean ====
import proofs.«145789_j53678501266189_1_alg».proof.Proof.Seg0
import proofs.«145789_j53678501266189_1_alg».proof.Proof.Seg1
import proofs.«145789_j53678501266189_1_alg».proof.Proof.Seg2
import proofs.«145789_j53678501266189_1_alg».proof.Proof.Seg3
import proofs.«145789_j53678501266189_1_alg».proof.Proof.Seg4
import proofs.«145789_j53678501266189_1_alg».proof.Proof.Seg5
import proofs.«145789_j53678501266189_1_alg».proof.Proof.Seg6
import proofs.«145789_j53678501266189_1_alg».proof.Proof.Seg7
import proofs.«145789_j53678501266189_1_alg».proof.Proof.Seg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates without a fault, the result array at the last valuation and every argument as launched: the conditional run at the nine regions' records. -/
theorem run_main : θ_run defs (onTc (τ := τ) (main (F := F))) ⟨m, fun _ => 0, ρ⟩ (fun r => ∀ c : Dev nD,
      r.2.mem ((c.tc : Thread nD τ).loc main_v10) = W11 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := run_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => (show iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) ⊢ (Rr c : sProp 𝕄) from by
          iintro ⟨-, HO, -, Hp, -⟩
          isplitl [Hp]; · iexists _; iexact Hp
          iexists ∅; iexact HO)
      iintro ⟨H, -⟩
      imodintro
      iapply hmono
      iexact H)
    (hE9 := fun c => by iintro ⟨-, H⟩; iexact H)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V2_eq]; exact .rfl) (hpost2 := fun c => by rw [V3_eq]; exact .rfl)
    (R3 := reg3 m) (hpre3 := fun c => by rw [V3_eq]; exact .rfl) (hpost3 := fun c => by rw [V4_eq]; exact .rfl)
    (R4 := reg4 m) (hpre4 := fun c => by rw [V4_eq]; exact .rfl) (hpost4 := fun c => by rw [V5_eq]; exact .rfl)
    (R5 := reg5 m) (hpre5 := fun c => by rw [V5_eq]; exact .rfl) (hpost5 := fun c => by rw [V6_eq]; exact .rfl)
    (R6 := reg6 m) (hpre6 := fun c => by rw [V6_eq]; exact .rfl) (hpost6 := fun c => by rw [V7_eq]; exact .rfl)
    (R7 := reg7 m) (hpre7 := fun c => by rw [V7_eq]; exact .rfl) (hpost7 := fun c => by rw [V8_eq]; exact .rfl)
    (R8 := reg8 m) (hpre8 := fun c => by rw [V9_eq]; exact .rfl) (hpost8 := fun c => by rw [V10_eq]; exact .rfl)
  refine (θ_run defs _ _).mono (fun r hr c => ?_) h
  have := hr c
  rw [V11_eq] at this
  exact this

end Cert.KernelIdeal.Hand

end
-- ==== Proof.LibBlockedDot.lean ====
import Idealize.ShloMosaic.Lib.Pipeline.Value
import Idealize.ShloMosaic.Lib.ValueIdx
import Idealize.ShloMosaic.PureOps.Ideal.Laws

namespace Cert.BlockedDot

open Finset Idealize.ShloMosaic Idealize.ShloMosaic.ValueIdx

variable {β : Type*} [AddCommMonoid β] {M K N : ℕ}

/-- Position B * s + κ is place κ of the s-th run of length B. -/
theorem sum_range_blocks (f : ℕ → β) (B : ℕ) :
    ∀ J : ℕ, ∑ K ∈ range (J * B), f K = ∑ s ∈ range J, ∑ κ ∈ range B, f (B * s + κ)
  | 0 => by rw [Nat.zero_mul, sum_range_zero, sum_range_zero]
  | J + 1 => by
    rw [Nat.succ_mul, sum_range_add, sum_range_blocks f B J, sum_range_succ, Nat.mul_comm J B]

/-- The same over Fin N with N = J * B, the summand of run s at place κ named G s κ. -/
theorem sum_fin_blocks {N : ℕ} (J B : ℕ) (hN : J * B = N) (g : Fin N → β) (G : ℕ → Fin B → β)
    (hG : ∀ (s : ℕ), s < J → ∀ (κ : Fin B) (h : B * s + κ.val < N), g ⟨B * s + κ.val, h⟩ = G s κ) :
    ∑ K : Fin N, g K = ∑ s ∈ range J, ∑ κ : Fin B, G s κ := by
  subst hN
  have hlt : ∀ s, s < J → ∀ κ : Fin B, B * s + κ.val < J * B := fun s hs κ =>
    calc B * s + κ.val < B * s + B := Nat.add_lt_add_left κ.isLt _
      _ = B * (s + 1) := (Nat.mul_succ B s).symm
      _ ≤ B * J := Nat.mul_le_mul_left B hs
      _ = J * B := Nat.mul_comm B J
  have e : ∀ K : Fin (J * B), g K = (fun n : ℕ => if h : n < J * B then g ⟨n, h⟩ else 0) K.val := fun K => by
    simp only [K.isLt, dite_true]
  rw [Fintype.sum_congr _ _ e, Fin.sum_univ_eq_sum_range (fun n : ℕ => if h : n < J * B then g ⟨n, h⟩ else 0) (J * B),
    sum_range_blocks _ B J]
  refine sum_congr rfl fun s hs => ?_
  have hs' : s < J := mem_range.mp hs
  rw [← Fin.sum_univ_eq_sum_range (fun κ : ℕ => if h : B * s + κ < J * B then g ⟨B * s + κ, h⟩ else 0) B]
  refine Fintype.sum_congr _ _ fun κ => ?_
  rw [dif_pos (hlt s hs' κ)]
  exact hG s hs' κ _

/-- A quantity that at the multiples of J is the point's sum over its B positions, and elsewhere adds the point's sum to what the
    point before left, holds at the last point of a run of J the one sum over all J * B positions. -/
theorem acc_blocked {P J B L : ℕ} {ι : Type*} (f : (n : ℕ) → n < P → ι → β) (T : (n : ℕ) → n < P → ι → Fin B → β)
    (h0 : ∀ n h, n % J = 0 → ∀ j, f n h j = 0 + ∑ κ, T n h j κ)
    (hs : ∀ n (h : n + 1 < P), ¬(n + 1) % J = 0 → ∀ j, f (n + 1) h j = f n (Nat.lt_of_succ_lt h) j + ∑ κ, T (n + 1) h j κ)
    (t : ℕ) (ht : t < P) (hl : t % J + 1 = J) (hL : J * B = L) (j : ι) (g : Fin L → β)
    (hg : ∀ s, s < J → ∀ (hn : J * (t / J) + s < P) (κ : Fin B) (h : B * s + κ.val < L), g ⟨B * s + κ.val, h⟩ = T (J * (t / J) + s) hn j κ) :
    f t ht j = ∑ k, g k := by
  have hdm := Nat.div_add_mod t J
  have hb : J * (t / J) + t % J < P := by omega
  have hG : ∀ n (h : n < P) j, ∑ κ, T n h j κ = ∑ κ, if h : n < P then T n h j κ else 0 :=
    fun n h j => sum_congr rfl fun κ _ => by rw [dif_pos h]
  rw [congrFun (Pipeline.eq_accAt_of_mod f J (fun n h j => 0 + ∑ κ, T n h j κ) (fun n h a j => a j + ∑ κ, T n h j κ)
      (fun n h hn => funext (h0 n h hn)) (fun n h hn => funext (hs n h hn)) (by omega) t ht hb) j,
    Pipeline.accAt_add_apply _ _ (fun _ => 0) (fun n j => ∑ κ, if h : n < P then T n h j κ else 0) (J * (t / J)) (t % J)
      (fun h j => congrArg (0 + ·) (hG _ h j)) (fun n h a j _ _ => congrArg (a j + ·) (hG n h j)) (t % J) le_rfl hb j, zero_add, hl]
  refine (sum_fin_blocks J B hL g (fun s κ => if h : J * (t / J) + s < P then T _ h j κ else 0) fun s hs κ h => ?_).symm
  have hn : J * (t / J) + s < P := by omega
  exact (hg s hs hn κ h).trans (by rw [dif_pos hn])

/-- A rows-by-columns product reads the left operand along row j 0 and the right one along column j 1. -/
theorem sum_plain (d : DotDims ⟨2, ![M, K]⟩ ⟨2, ![K, N]⟩ ⟨2, ![M, N]⟩) (hd : d = DotDims.plain M K N)
    (f : (⟨2, ![M, K]⟩ : Shape).Idx → (⟨2, ![K, N]⟩ : Shape).Idx → β) (j : (⟨2, ![M, N]⟩ : Shape).Idx) :
    ∑ k : d.contr.Idx, f (d.lhsIdx j k) (d.rhsIdx j k) = ∑ κ : Fin K, f (ix2 (j 0) κ) (ix2 κ (j 1)) := by
  subst hd
  rw [← Equiv.sum_comp (contrEquiv1 (DotDims.plain M K N) K rfl rfl).symm]
  refine sum_congr rfl fun κ _ => congrArg₂ f (funext fun a => ?_) (funext fun a => ?_) <;>
    match a with
    | ⟨0, _⟩ => rfl
    | ⟨1, _⟩ => rfl

/-- With the right operand contracted on its second axis it is read along its row j 1. -/
theorem sum_transposedRhs (d : DotDims ⟨2, ![M, K]⟩ ⟨2, ![N, K]⟩ ⟨2, ![M, N]⟩) (hd : d = DotDims.transposedRhs M K N)
    (f : (⟨2, ![M, K]⟩ : Shape).Idx → (⟨2, ![N, K]⟩ : Shape).Idx → β) (j : (⟨2, ![M, N]⟩ : Shape).Idx) :
    ∑ k : d.contr.Idx, f (d.lhsIdx j k) (d.rhsIdx j k) = ∑ κ : Fin K, f (ix2 (j 0) κ) (ix2 (j 1) κ) := by
  subst hd
  rw [← Equiv.sum_comp (contrEquiv1 (DotDims.transposedRhs M K N) K rfl rfl).symm]
  refine sum_congr rfl fun κ _ => congrArg₂ f (funext fun a => ?_) (funext fun a => ?_) <;>
    match a with
    | ⟨0, _⟩ => rfl
    | ⟨1, _⟩ => rfl

/-- A block product into the zero accumulator, at an output position. -/
theorem matmul_plain_apply {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (j : (⟨2, ![M, N]⟩ : Shape).Idx) :
    FloatOps.matmul d none a b (constant _ .f32 0x00000000#32) j = ∑ κ : Fin K, a (ix2 (j 0) κ) * b (ix2 κ (j 1)) :=
  (Ideal.matmul_constant_zero_apply d none a b j).trans (sum_plain d hd (fun l r => a l * b r) j)

/-- The whole product at an output position. -/
theorem dotGeneral_plain_apply {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (i : (⟨2, ![M, N]⟩ : Shape).Idx) :
    Host.dotGeneral d none x w i = ∑ κ : Fin K, x (ix2 (i 0) κ) * w (ix2 κ (i 1)) :=
  (Ideal.dotGeneral_apply d none .single x w i).trans (sum_plain d hd (fun l r => x l * w r) i)

/-- The same with the right operand contracted on its second axis. -/
theorem dotGeneral_transposedRhs_apply {φ₁ φ₂ : FTy} (d : DotDims ⟨2, ![M, K]⟩ ⟨2, ![N, K]⟩ ⟨2, ![M, N]⟩) (hd : d = DotDims.transposedRhs M K N)
    (x : FVec Ideal ⟨2, ![M, K]⟩ φ₁) (z : FVec Ideal ⟨2, ![N, K]⟩ φ₂) (i : (⟨2, ![M, N]⟩ : Shape).Idx) :
    Host.dotGeneral d none x z i = ∑ κ : Fin K, x (ix2 (i 0) κ) * z (ix2 (i 1) κ) :=
  (Ideal.dotGeneral_apply d none .single x z i).trans (sum_transposedRhs d hd (fun l r => x l * z r) i)

/-- An index with the coordinates of a view's image of y lies in the view's set. -/
theorem mem_set_of_emb {sig : RefSig} {κ : Kind} {sp : Space} {s : Shape} {e : EltTy} (v : View sig κ sp s e) (i : v.ty.Idx) (y : s.Idx)
    (h : ∀ a, (v.emb y a).val = (i a).val) : i ∈ v.set :=
  (funext fun a => Fin.ext (h a) : v.emb y = i) ▸ v.emb_mem_set y

end Cert.BlockedDot
-- ==== Proof.Val0.lean ====
import proofs.«145789_j53678501266189_1_alg».proof.Proof.Reg0
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val0

theorem pay1_apply (j : S1024x64.Idx) : k0_pay1 (F := Ideal) j = 0 := by
  unfold k0_pay1
  rw [shapeCast_self]
  exact Ideal.ofBits_zero_f32

/-- At the ideal values one step adds the exact product of the two blocks. -/
theorem pay2_apply (a : Vec Ideal S1024x2048 .f32) (b : Vec Ideal S2048x64 .f32) (s : Vec Ideal S1024x64 .f32) (j : S1024x64.Idx) :
    k0_pay2 a b s j = s j + ∑ κ : Fin 2048, a (ix2 (j 0) κ) * b (ix2 κ (j 1)) := by
  unfold k0_pay2
  simp only [shapeCast_self]
  exact congrArg (s j + ·) (matmul_plain_apply _ rfl _ _ j)

theorem idx : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

section Blocks

variable (V : (c : Dev nD) → (b : Ref sig .tc) → Buf (Elt Ideal) ((c : Thread nD τ).loc b))

theorem lblk_apply (c : Dev nD) (t : Fin cfg0.N) (y : S1024x2048.Idx) (i : S8192x8192.Idx)
    (h0 : (i 0).val = 1024 * (t.val / 4) + (y 0).val) (h1 : (i 1).val = 2048 * (t.val % 4) + (y 1).val) :
    V c main_arg0 i = ablk0 V c t y := by
  obtain ⟨e0, e1, -, -, -, -⟩ := idx t
  refine congrArg (V c main_arg0) (funext fun a => Fin.ext ?_)
  match a with
  | ⟨0, _⟩ => show (i 0).val = win0_0.index t (0 : Fin 2) * 1024 + 1 * (y 0).val; omega
  | ⟨1, _⟩ => show (i 1).val = win0_0.index t (1 : Fin 2) * 2048 + 1 * (y 1).val; omega

theorem rblk_apply (c : Dev nD) (t : Fin cfg0.N) (y : S2048x64.Idx) (i : S8192x64.Idx)
    (h0 : (i 0).val = 2048 * (t.val % 4) + (y 0).val) (h1 : (i 1).val = (y 1).val) :
    V c main_arg2 i = bblk0 V c t y := by
  obtain ⟨-, -, e0, e1, -, -⟩ := idx t
  refine congrArg (V c main_arg2) (funext fun a => Fin.ext ?_)
  match a with
  | ⟨0, _⟩ => show (i 0).val = win0_1.index t (0 : Fin 2) * 2048 + 1 * (y 0).val; omega
  | ⟨1, _⟩ => show (i 1).val = win0_1.index t (1 : Fin 2) * 64 + 1 * (y 1).val; omega

theorem oblk_emb (t : Fin cfg0.N) (j : S1024x64.Idx) :
    ((((cfg0.win 2).blk t).view.emb j : S8192x64.Idx) 0).val = 1024 * (t.val / 4) + (j 0).val
      ∧ ((((cfg0.win 2).blk t).view.emb j : S8192x64.Idx) 1).val = (j 1).val := by
  obtain ⟨-, -, -, -, e0, e1⟩ := idx t
  constructor
  · show win0_2.index t (0 : Fin 2) * 1024 + 1 * (j 0).val = _; omega
  · show win0_2.index t (1 : Fin 2) * 64 + 1 * (j 1).val = _; omega

/-- Row r is row r % 1024 of the block of the point that ends row block r / 1024's reduction. -/
theorem cover (i : S8192x64.Idx) : ∃ t : Fin cfg0.N, (cfg0.win 2).flush t = true ∧ i ∈ ((cfg0.win 2).blk t).view.set := by
  have hi : (i 0).val < 8192 := (i 0).isLt
  have ht : 4 * ((i 0).val / 1024) + 3 < cfg0.N := by rw [show cfg0.N = 32 from N_0]; omega
  obtain ⟨o0, o1⟩ := oblk_emb ⟨_, ht⟩ (ix2 ⟨(i 0).val % 1024, Nat.mod_lt _ (by decide)⟩ (i 1))
  exact ⟨⟨_, ht⟩, (flush0_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg0.N) (h3 : t.val % 4 = 3) (j : S1024x64.Idx) (i : S8192x64.Idx)
    (o0 : (i 0).val = 1024 * (t.val / 4) + (j 0).val) (o1 : (i 1).val = (j 1).val) :
    acc0 V c t.val t.isLt j = Host.dotGeneral (F := Ideal) (φ₁ := .f32) (φ₂ := .f32) Cert.ReferenceIdeal.dot_S8192x8192_S8192x64_S8192x64_1_0_0_1_n_n none (V c main_arg0) (V c main_arg2) i := by
  refine Eq.trans ?_ (dotGeneral_plain_apply _ rfl _ _ i).symm
  refine acc_blocked (J := 4) (fun n h => acc0 V c n h) (fun n h j κ => ablk0 V c ⟨n, h⟩ (ix2 (j 0) κ) * bblk0 V c ⟨n, h⟩ (ix2 κ (j 1)))
    (fun n h hn j => by rw [acc0_reset V c ⟨n, h⟩ hn, pay2_apply, pay1_apply])
    (fun n h hn j => by rw [acc0_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val0

theorem value0 (V : (c : Dev nD) → (b : Ref sig .tc) → Buf (Elt Ideal) ((c : Thread nD τ).loc b)) (c : Dev nD) :
    (dat0 (F := Ideal) V c).arrAt 2 cfg0.N
      = (Host.dotGeneral (F := Ideal) (φ₁ := .f32) (φ₂ := .f32) Cert.ReferenceIdeal.dot_S8192x8192_S8192x64_S8192x64_1_0_0_1_n_n none (V c main_arg0) (V c main_arg2) : Vec Ideal S8192x64 .f32) :=
  (dat0 (F := Ideal) V c).arrAt_eq_of_cover 2 _ (fun t hf => by
    show (cfg0.win 2).cut (grid0.coords t) ((dat0 (F := Ideal) V c).after 2 t) = _
    rw [after0_2]
    exact funext fun j => Val0.acc_last_eq_prod V c t ((flush0_2 t).mp hf) j _ (Val0.oblk_emb t j).1 (Val0.oblk_emb t j).2) Val0.cover

end Cert.KernelIdeal.Hand

end
-- ==== Proof.Val1.lean ====
import proofs.«145789_j53678501266189_1_alg».proof.Proof.Reg1
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val1

theorem pay1_apply (j : S1024x64.Idx) : k1_pay1 (F := Ideal) j = 0 := by
  unfold k1_pay1
  rw [shapeCast_self]
  exact Ideal.ofBits_zero_f32

/-- At the ideal values one step adds the exact product of the two blocks. -/
theorem pay2_apply (a : Vec Ideal S1024x2048 .f32) (b : Vec Ideal S2048x64 .f32) (s : Vec Ideal S1024x64 .f32) (j : S1024x64.Idx) :
    k1_pay2 a b s j = s j + ∑ κ : Fin 2048, a (ix2 (j 0) κ) * b (ix2 κ (j 1)) := by
  unfold k1_pay2
  simp only [shapeCast_self]
  exact congrArg (s j + ·) (matmul_plain_apply _ rfl _ _ j)

/-- The maximum with zero of a whole array, entry by entry. -/
abbrev relu (x : Vec Ideal S8192x64 .f32) : Vec Ideal S8192x64 .f32 :=
  maximumf (F := Ideal) (φ := .f32) x (broadcastInDim Cert.ReferenceIdeal.S8192x64 ![] Cert.ReferenceIdeal.Facts₀.bcast_S_S8192x64 (constant (F := Ideal) Cert.ReferenceIdeal.S_ .f32 0x00000000#32))

theorem relu_apply (x : Vec Ideal S8192x64 .f32) (i : S8192x64.Idx) : relu x i = max (x i) 0 := by
  show max (x i) (broadcastInDim Cert.ReferenceIdeal.S8192x64 ![] Cert.ReferenceIdeal.Facts₀.bcast_S_S8192x64 (constant (F := Ideal) Cert.ReferenceIdeal.S_ .f32 0x00000000#32) i) = _
  rw [broadcastInDim_apply _ Cert.ReferenceIdeal.Facts₀.bcast_S_S8192x64 (constant (F := Ideal) Cert.ReferenceIdeal.S_ .f32 0x00000000#32) i (fun a => a.elim0) (fun a => a.elim0)]
  exact congrArg (max (x i)) Ideal.ofBits_zero_f32

theorem pay3_apply (s : Vec Ideal S1024x64 .f32) (j : S1024x64.Idx) : k1_pay3 s j = max (s j) 0 := by
  unfold k1_pay3
  exact congrArg (max (s j)) Ideal.ofBits_zero_f32

theorem idx : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

section Blocks

variable (V : (c : Dev nD) → (b : Ref sig .tc) → Buf (Elt Ideal) ((c : Thread nD τ).loc b))

theorem lblk_apply (c : Dev nD) (t : Fin cfg1.N) (y : S1024x2048.Idx) (i : S8192x8192.Idx)
    (h0 : (i 0).val = 1024 * (t.val / 4) + (y 0).val) (h1 : (i 1).val = 2048 * (t.val % 4) + (y 1).val) :
    V c main_arg1 i = ablk1 V c t y := by
  obtain ⟨e0, e1, -, -, -, -⟩ := idx t
  refine congrArg (V c main_arg1) (funext fun a => Fin.ext ?_)
  match a with
  | ⟨0, _⟩ => show (i 0).val = win1_0.index t (0 : Fin 2) * 1024 + 1 * (y 0).val; omega
  | ⟨1, _⟩ => show (i 1).val = win1_0.index t (1 : Fin 2) * 2048 + 1 * (y 1).val; omega

theorem rblk_apply (c : Dev nD) (t : Fin cfg1.N) (y : S2048x64.Idx) (i : S8192x64.Idx)
    (h0 : (i 0).val = 2048 * (t.val % 4) + (y 0).val) (h1 : (i 1).val = (y 1).val) :
    V c main_v0 i = bblk1 V c t y := by
  obtain ⟨-, -, e0, e1, -, -⟩ := idx t
  refine congrArg (V c main_v0) (funext fun a => Fin.ext ?_)
  match a with
  | ⟨0, _⟩ => show (i 0).val = win1_1.index t (0 : Fin 2) * 2048 + 1 * (y 0).val; omega
  | ⟨1, _⟩ => show (i 1).val = win1_1.index t (1 : Fin 2) * 64 + 1 * (y 1).val; omega

theorem oblk_emb (t : Fin cfg1.N) (j : S1024x64.Idx) :
    ((((cfg1.win 2).blk t).view.emb j : S8192x64.Idx) 0).val = 1024 * (t.val / 4) + (j 0).val
      ∧ ((((cfg1.win 2).blk t).view.emb j : S8192x64.Idx) 1).val = (j 1).val := by
  obtain ⟨-, -, -, -, e0, e1⟩ := idx t
  constructor
  · show win1_2.index t (0 : Fin 2) * 1024 + 1 * (j 0).val = _; omega
  · show win1_2.index t (1 : Fin 2) * 64 + 1 * (j 1).val = _; omega

/-- Row r is row r % 1024 of the block of the point that ends row block r / 1024's reduction. -/
theorem cover (i : S8192x64.Idx) : ∃ t : Fin cfg1.N, (cfg1.win 2).flush t = true ∧ i ∈ ((cfg1.win 2).blk t).view.set := by
  have hi : (i 0).val < 8192 := (i 0).isLt
  have ht : 4 * ((i 0).val / 1024) + 3 < cfg1.N := by rw [show cfg1.N = 32 from N_1]; omega
  obtain ⟨o0, o1⟩ := oblk_emb ⟨_, ht⟩ (ix2 ⟨(i 0).val % 1024, Nat.mod_lt _ (by decide)⟩ (i 1))
  exact ⟨⟨_, ht⟩, (flush1_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg1.N) (h3 : t.val % 4 = 3) (j : S1024x64.Idx) (i : S8192x64.Idx)
    (o0 : (i 0).val = 1024 * (t.val / 4) + (j 0).val) (o1 : (i 1).val = (j 1).val) :
    acc1 V c t.val t.isLt j = Host.dotGeneral (F := Ideal) (φ₁ := .f32) (φ₂ := .f32) Cert.ReferenceIdeal.dot_S8192x8192_S8192x64_S8192x64_1_0_0_1_n_n none (V c main_arg1) (V c main_v0) i := by
  refine Eq.trans ?_ (dotGeneral_plain_apply _ rfl _ _ i).symm
  refine acc_blocked (J := 4) (fun n h => acc1 V c n h) (fun n h j κ => ablk1 V c ⟨n, h⟩ (ix2 (j 0) κ) * bblk1 V c ⟨n, h⟩ (ix2 κ (j 1)))
    (fun n h hn j => by rw [acc1_reset V c ⟨n, h⟩ hn, pay2_apply, pay1_apply])
    (fun n h hn j => by rw [acc1_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val1

theorem value1 (V : (c : Dev nD) → (b : Ref sig .tc) → Buf (Elt Ideal) ((c : Thread nD τ).loc b)) (c : Dev nD) :
    (dat1 (F := Ideal) V c).arrAt 2 cfg1.N
      = (maximumf (F := Ideal) (φ := .f32) (Host.dotGeneral (F := Ideal) (φ₁ := .f32) (φ₂ := .f32) Cert.ReferenceIdeal.dot_S8192x8192_S8192x64_S8192x64_1_0_0_1_n_n none (V c main_arg1) (V c main_v0))
          (broadcastInDim Cert.ReferenceIdeal.S8192x64 ![] Cert.ReferenceIdeal.Facts₀.bcast_S_S8192x64 (constant (F := Ideal) Cert.ReferenceIdeal.S_ .f32 0x00000000#32)) : Vec Ideal S8192x64 .f32) :=
  (dat1 (F := Ideal) V c).arrAt_eq_of_cover 2 _ (fun t hf => by
    show (cfg1.win 2).cut (grid1.coords t) ((dat1 (F := Ideal) V c).after 2 t) = _
    rw [after1_2]
    funext j
    show k1_pay3 (acc1 V c t.val t.isLt) j = Val1.relu (Host.dotGeneral (F := Ideal) (φ₁ := .f32) (φ₂ := .f32) Cert.ReferenceIdeal.dot_S8192x8192_S8192x64_S8192x64_1_0_0_1_n_n none (V c main_arg1) (V c main_v0)) (((cfg1.win 2).blk t).view.emb j)
    rw [Val1.pay3_apply, Val1.relu_apply, Val1.acc_last_eq_prod V c t ((flush1_2 t).mp hf) j _ (Val1.oblk_emb t j).1 (Val1.oblk_emb t j).2]) Val1.cover

end Cert.KernelIdeal.Hand

end
-- ==== Proof.Val2.lean ====
import proofs.«145789_j53678501266189_1_alg».proof.Proof.Reg2
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val2

theorem pay1_apply (j : S8192x32.Idx) : k2_pay1 (F := Ideal) j = 0 := by
  unfold k2_pay1
  rw [shapeCast_self]
  exact Ideal.ofBits_zero_f32

/-- At the ideal values the step adds the exact product of the two operands. -/
theorem pay2_apply (a : Vec Ideal S8192x64 .f32) (b : Vec Ideal S64x32 .f32) (s : Vec Ideal S8192x32 .f32) (j : S8192x32.Idx) :
    k2_pay2 a b s j = s j + ∑ κ : Fin 64, a (ix2 (j 0) κ) * b (ix2 κ (j 1)) := by
  unfold k2_pay2
  simp only [shapeCast_self]
  exact congrArg (s j + ·) (matmul_plain_apply _ rfl _ _ j)

theorem idx : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

section Blocks

variable (V : (c : Dev nD) → (b : Ref sig .tc) → Buf (Elt Ideal) ((c : Thread nD τ).loc b))

/-- The only point's blocks are the whole arrays. -/
theorem lblk_apply (c : Dev nD) (t : Fin cfg2.N) (y : S8192x64.Idx) : V c main_v1 y = ablk2 V c t y := by
  obtain ⟨e0, e1, -, -, -, -⟩ := idx t
  refine congrArg (V c main_v1) (funext fun a => Fin.ext ?_)
  match a with
  | ⟨0, _⟩ => show (y 0).val = win2_0.index t (0 : Fin 2) * 8192 + 1 * (y 0).val; omega
  | ⟨1, _⟩ => show (y 1).val = win2_0.index t (1 : Fin 2) * 64 + 1 * (y 1).val; omega

theorem rblk_apply (c : Dev nD) (t : Fin cfg2.N) (y : S64x32.Idx) : V c main_arg3 y = bblk2 V c t y := by
  obtain ⟨-, -, e0, e1, -, -⟩ := idx t
  refine congrArg (V c main_arg3) (funext fun a => Fin.ext ?_)
  match a with
  | ⟨0, _⟩ => show (y 0).val = win2_1.index t (0 : Fin 2) * 64 + 1 * (y 0).val; omega
  | ⟨1, _⟩ => show (y 1).val = win2_1.index t (1 : Fin 2) * 32 + 1 * (y 1).val; omega

theorem oblk_emb (t : Fin cfg2.N) (j : S8192x32.Idx) : (((cfg2.win 2).blk t).view.emb j : S8192x32.Idx) = j := by
  obtain ⟨-, -, -, -, e0, e1⟩ := idx t
  refine funext fun a => Fin.ext ?_
  match a with
  | ⟨0, _⟩ => show win2_2.index t (0 : Fin 2) * 8192 + 1 * (j 0).val = (j 0).val; omega
  | ⟨1, _⟩ => show win2_2.index t (1 : Fin 2) * 32 + 1 * (j 1).val = (j 1).val; omega

theorem cover (i : S8192x32.Idx) : ∃ t : Fin cfg2.N, (cfg2.win 2).flush t = true ∧ i ∈ ((cfg2.win 2).blk t).view.set :=
  ⟨t2_0, flush2_2 t2_0, oblk_emb t2_0 i ▸ ((cfg2.win 2).blk t2_0).view.emb_mem_set i⟩

theorem flushed_eq (c : Dev nD) (t : Fin cfg2.N) :
    (dat2 (F := Ideal) V c).flushed 2 t = ((cfg2.win 2).blk t).view.read (Elt Ideal) (Host.dotGeneral (F := Ideal) (φ₁ := .f32) (φ₂ := .f32) Cert.ReferenceIdeal.dot_S8192x64_S64x32_S8192x32_1_0_0_1_n_n none (V c main_v1) (V c main_arg3)) := by
  show (cfg2.win 2).cut (grid2.coords t) ((dat2 (F := Ideal) V c).after 2 t) = _
  rw [after2_2]
  funext j
  show k2_pay2 (ablk2 V c t) (bblk2 V c t) (k2_pay1 (F := Ideal)) j = (Host.dotGeneral (F := Ideal) (φ₁ := .f32) (φ₂ := .f32) Cert.ReferenceIdeal.dot_S8192x64_S64x32_S8192x32_1_0_0_1_n_n none (V c main_v1) (V c main_arg3)) (((cfg2.win 2).blk t).view.emb j)
  rw [oblk_emb, pay2_apply, pay1_apply, zero_add]
  refine Eq.trans ?_ (dotGeneral_plain_apply _ rfl _ _ j).symm
  exact Finset.sum_congr rfl fun κ _ => congrArg₂ (· * ·) (lblk_apply V c t _).symm (rblk_apply V c t _).symm

end Blocks

end Val2

theorem value2 (V : (c : Dev nD) → (b : Ref sig .tc) → Buf (Elt Ideal) ((c : Thread nD τ).loc b)) (c : Dev nD) :
    (dat2 (F := Ideal) V c).arrAt 2 cfg2.N
      = (Host.dotGeneral (F := Ideal) (φ₁ := .f32) (φ₂ := .f32) Cert.ReferenceIdeal.dot_S8192x64_S64x32_S8192x32_1_0_0_1_n_n none (V c main_v1) (V c main_arg3) : Vec Ideal S8192x32 .f32) :=
  (dat2 (F := Ideal) V c).arrAt_eq_of_cover 2 _ (fun t _ => Val2.flushed_eq V c t) Val2.cover

end Cert.KernelIdeal.Hand

end
-- ==== Proof.Val3.lean ====
import proofs.«145789_j53678501266189_1_alg».proof.Proof.Reg3
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val3

theorem pay1_apply (j : S1024x32.Idx) : k3_pay1 (F := Ideal) j = 0 := by
  unfold k3_pay1
  rw [shapeCast_self]
  exact Ideal.ofBits_zero_f32

/-- At the ideal values one step adds the exact product of the two blocks. -/
theorem pay2_apply (a : Vec Ideal S1024x2048 .f32) (b : Vec Ideal S2048x32 .f32) (s : Vec Ideal S1024x32 .f32) (j : S1024x32.Idx) :
    k3_pay2 a b s j = s j + ∑ κ : Fin 2048, a (ix2 (j 0) κ) * b (ix2 κ (j 1)) := by
  unfold k3_pay2
  simp only [shapeCast_self]
  exact congrArg (s j + ·) (matmul_plain_apply _ rfl _ _ j)

theorem idx : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

section Blocks

variable (V : (c : Dev nD) → (b : Ref sig .tc) → Buf (Elt Ideal) ((c : Thread nD τ).loc b))

theorem lblk_apply (c : Dev nD) (t : Fin cfg3.N) (y : S1024x2048.Idx) (i : S8192x8192.Idx)
    (h0 : (i 0).val = 1024 * (t.val / 4) + (y 0).val) (h1 : (i 1).val = 2048 * (t.val % 4) + (y 1).val) :
    V c main_arg1 i = ablk3 V c t y := by
  obtain ⟨e0, e1, -, -, -, -⟩ := idx t
  refine congrArg (V c main_arg1) (funext fun a => Fin.ext ?_)
  match a with
  | ⟨0, _⟩ => show (i 0).val = win3_0.index t (0 : Fin 2) * 1024 + 1 * (y 0).val; omega
  | ⟨1, _⟩ => show (i 1).val = win3_0.index t (1 : Fin 2) * 2048 + 1 * (y 1).val; omega

theorem rblk_apply (c : Dev nD) (t : Fin cfg3.N) (y : S2048x32.Idx) (i : S8192x32.Idx)
    (h0 : (i 0).val = 2048 * (t.val % 4) + (y 0).val) (h1 : (i 1).val = (y 1).val) :
    V c main_v2 i = bblk3 V c t y := by
  obtain ⟨-, -, e0, e1, -, -⟩ := idx t
  refine congrArg (V c main_v2) (funext fun a => Fin.ext ?_)
  match a with
  | ⟨0, _⟩ => show (i 0).val = win3_1.index t (0 : Fin 2) * 2048 + 1 * (y 0).val; omega
  | ⟨1, _⟩ => show (i 1).val = win3_1.index t (1 : Fin 2) * 32 + 1 * (y 1).val; omega

theorem oblk_emb (t : Fin cfg3.N) (j : S1024x32.Idx) :
    ((((cfg3.win 2).blk t).view.emb j : S8192x32.Idx) 0).val = 1024 * (t.val / 4) + (j 0).val
      ∧ ((((cfg3.win 2).blk t).view.emb j : S8192x32.Idx) 1).val = (j 1).val := by
  obtain ⟨-, -, -, -, e0, e1⟩ := idx t
  constructor
  · show win3_2.index t (0 : Fin 2) * 1024 + 1 * (j 0).val = _; omega
  · show win3_2.index t (1 : Fin 2) * 32 + 1 * (j 1).val = _; omega

/-- Row r is row r % 1024 of the block of the point that ends row block r / 1024's reduction. -/
theorem cover (i : S8192x32.Idx) : ∃ t : Fin cfg3.N, (cfg3.win 2).flush t = true ∧ i ∈ ((cfg3.win 2).blk t).view.set := by
  have hi : (i 0).val < 8192 := (i 0).isLt
  have ht : 4 * ((i 0).val / 1024) + 3 < cfg3.N := by rw [show cfg3.N = 32 from N_3]; omega
  obtain ⟨o0, o1⟩ := oblk_emb ⟨_, ht⟩ (ix2 ⟨(i 0).val % 1024, Nat.mod_lt _ (by decide)⟩ (i 1))
  exact ⟨⟨_, ht⟩, (flush3_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg3.N) (h3 : t.val % 4 = 3) (j : S1024x32.Idx) (i : S8192x32.Idx)
    (o0 : (i 0).val = 1024 * (t.val / 4) + (j 0).val) (o1 : (i 1).val = (j 1).val) :
    acc3 V c t.val t.isLt j = Host.dotGeneral (F := Ideal) (φ₁ := .f32) (φ₂ := .f32) Cert.ReferenceIdeal.dot_S8192x8192_S8192x32_S8192x32_1_0_0_1_n_n none (V c main_arg1) (V c main_v2) i := by
  refine Eq.trans ?_ (dotGeneral_plain_apply _ rfl _ _ i).symm
  refine acc_blocked (J := 4) (fun n h => acc3 V c n h) (fun n h j κ => ablk3 V c ⟨n, h⟩ (ix2 (j 0) κ) * bblk3 V c ⟨n, h⟩ (ix2 κ (j 1)))
    (fun n h hn j => by rw [acc3_reset V c ⟨n, h⟩ hn, pay2_apply, pay1_apply])
    (fun n h hn j => by rw [acc3_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val3

theorem value3 (V : (c : Dev nD) → (b : Ref sig .tc) → Buf (Elt Ideal) ((c : Thread nD τ).loc b)) (c : Dev nD) :
    (dat3 (F := Ideal) V c).arrAt 2 cfg3.N
      = (Host.dotGeneral (F := Ideal) (φ₁ := .f32) (φ₂ := .f32) Cert.ReferenceIdeal.dot_S8192x8192_S8192x32_S8192x32_1_0_0_1_n_n none (V c main_arg1) (V c main_v2) : Vec Ideal S8192x32 .f32) :=
  (dat3 (F := Ideal) V c).arrAt_eq_of_cover 2 _ (fun t hf => by
    show (cfg3.win 2).cut (grid3.coords t) ((dat3 (F := Ideal) V c).after 2 t) = _
    rw [after3_2]
    exact funext fun j => Val3.acc_last_eq_prod V c t ((flush3_2 t).mp hf) j _ (Val3.oblk_emb t j).1 (Val3.oblk_emb t j).2) Val3.cover

end Cert.KernelIdeal.Hand

end
-- ==== Proof.Val4.lean ====
import proofs.«145789_j53678501266189_1_alg».proof.Proof.Reg4
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val4

theorem pay1_apply (j : S1024x64.Idx) : k4_pay1 (F := Ideal) j = 0 := by
  unfold k4_pay1
  rw [shapeCast_self]
  exact Ideal.ofBits_zero_f32

/-- At the ideal values one step adds the exact product of the two blocks. -/
theorem pay2_apply (a : Vec Ideal S1024x2048 .f32) (b : Vec Ideal S2048x64 .f32) (s : Vec Ideal S1024x64 .f32) (j : S1024x64.Idx) :
    k4_pay2 a b s j = s j + ∑ κ : Fin 2048, a (ix2 (j 0) κ) * b (ix2 κ (j 1)) := by
  unfold k4_pay2
  simp only [shapeCast_self]
  exact congrArg (s j + ·) (matmul_plain_apply _ rfl _ _ j)

theorem idx : ∀ t : Fin cfg4.N, win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0 :=
  (by decide +kernel : ∀ t : Fin grid4.N, _)

section Blocks

variable (V : (c : Dev nD) → (b : Ref sig .tc) → Buf (Elt Ideal) ((c : Thread nD τ).loc b))

theorem lblk_apply (c : Dev nD) (t : Fin cfg4.N) (y : S1024x2048.Idx) (i : S8192x8192.Idx)
    (h0 : (i 0).val = 1024 * (t.val / 4) + (y 0).val) (h1 : (i 1).val = 2048 * (t.val % 4) + (y 1).val) :
    V c main_arg4 i = ablk4 V c t y := by
  obtain ⟨e0, e1, -, -, -, -⟩ := idx t
  refine congrArg (V c main_arg4) (funext fun a => Fin.ext ?_)
  match a with
  | ⟨0, _⟩ => show (i 0).val = win4_0.index t (0 : Fin 2) * 1024 + 1 * (y 0).val; omega
  | ⟨1, _⟩ => show (i 1).val = win4_0.index t (1 : Fin 2) * 2048 + 1 * (y 1).val; omega

theorem rblk_apply (c : Dev nD) (t : Fin cfg4.N) (y : S2048x64.Idx) (i : S8192x64.Idx)
    (h0 : (i 0).val = 2048 * (t.val % 4) + (y 0).val) (h1 : (i 1).val = (y 1).val) :
    V c main_arg6 i = bblk4 V c t y := by
  obtain ⟨-, -, e0, e1, -, -⟩ := idx t
  refine congrArg (V c main_arg6) (funext fun a => Fin.ext ?_)
  match a with
  | ⟨0, _⟩ => show (i 0).val = win4_1.index t (0 : Fin 2) * 2048 + 1 * (y 0).val; omega
  | ⟨1, _⟩ => show (i 1).val = win4_1.index t (1 : Fin 2) * 64 + 1 * (y 1).val; omega

theorem oblk_emb (t : Fin cfg4.N) (j : S1024x64.Idx) :
    ((((cfg4.win 2).blk t).view.emb j : S8192x64.Idx) 0).val = 1024 * (t.val / 4) + (j 0).val
      ∧ ((((cfg4.win 2).blk t).view.emb j : S8192x64.Idx) 1).val = (j 1).val := by
  obtain ⟨-, -, -, -, e0, e1⟩ := idx t
  constructor
  · show win4_2.index t (0 : Fin 2) * 1024 + 1 * (j 0).val = _; omega
  · show win4_2.index t (1 : Fin 2) * 64 + 1 * (j 1).val = _; omega

/-- Row r is row r % 1024 of the block of the point that ends row block r / 1024's reduction. -/
theorem cover (i : S8192x64.Idx) : ∃ t : Fin cfg4.N, (cfg4.win 2).flush t = true ∧ i ∈ ((cfg4.win 2).blk t).view.set := by
  have hi : (i 0).val < 8192 := (i 0).isLt
  have ht : 4 * ((i 0).val / 1024) + 3 < cfg4.N := by rw [show cfg4.N = 32 from N_4]; omega
  obtain ⟨o0, o1⟩ := oblk_emb ⟨_, ht⟩ (ix2 ⟨(i 0).val % 1024, Nat.mod_lt _ (by decide)⟩ (i 1))
  exact ⟨⟨_, ht⟩, (flush4_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg4.N) (h3 : t.val % 4 = 3) (j : S1024x64.Idx) (i : S8192x64.Idx)
    (o0 : (i 0).val = 1024 * (t.val / 4) + (j 0).val) (o1 : (i 1).val = (j 1).val) :
    acc4 V c t.val t.isLt j = Host.dotGeneral (F := Ideal) (φ₁ := .f32) (φ₂ := .f32) Cert.ReferenceIdeal.dot_S8192x8192_S8192x64_S8192x64_1_0_0_1_n_n none (V c main_arg4) (V c main_arg6) i := by
  refine Eq.trans ?_ (dotGeneral_plain_apply _ rfl _ _ i).symm
  refine acc_blocked (J := 4) (fun n h => acc4 V c n h) (fun n h j κ => ablk4 V c ⟨n, h⟩ (ix2 (j 0) κ) * bblk4 V c ⟨n, h⟩ (ix2 κ (j 1)))
    (fun n h hn j => by rw [acc4_reset V c ⟨n, h⟩ hn, pay2_apply, pay1_apply])
    (fun n h hn j => by rw [acc4_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val4

theorem value4 (V : (c : Dev nD) → (b : Ref sig .tc) → Buf (Elt Ideal) ((c : Thread nD τ).loc b)) (c : Dev nD) :
    (dat4 (F := Ideal) V c).arrAt 2 cfg4.N
      = (Host.dotGeneral (F := Ideal) (φ₁ := .f32) (φ₂ := .f32) Cert.ReferenceIdeal.dot_S8192x8192_S8192x64_S8192x64_1_0_0_1_n_n none (V c main_arg4) (V c main_arg6) : Vec Ideal S8192x64 .f32) :=
  (dat4 (F := Ideal) V c).arrAt_eq_of_cover 2 _ (fun t hf => by
    show (cfg4.win 2).cut (grid4.coords t) ((dat4 (F := Ideal) V c).after 2 t) = _
    rw [after4_2]
    exact funext fun j => Val4.acc_last_eq_prod V c t ((flush4_2 t).mp hf) j _ (Val4.oblk_emb t j).1 (Val4.oblk_emb t j).2) Val4.cover

end Cert.KernelIdeal.Hand

end
-- ==== Proof.Val5.lean ====
import proofs.«145789_j53678501266189_1_alg».proof.Proof.Reg5
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val5

theorem pay1_apply (j : S1024x64.Idx) : k5_pay1 (F := Ideal) j = 0 := by
  unfold k5_pay1
  rw [shapeCast_self]
  exact Ideal.ofBits_zero_f32

/-- At the ideal values one step adds the exact product of the two blocks. -/
theorem pay2_apply (a : Vec Ideal S1024x2048 .f32) (b : Vec Ideal S2048x64 .f32) (s : Vec Ideal S1024x64 .f32) (j : S1024x64.Idx) :
    k5_pay2 a b s j = s j + ∑ κ : Fin 2048, a (ix2 (j 0) κ) * b (ix2 κ (j 1)) := by
  unfold k5_pay2
  simp only [shapeCast_self]
  exact congrArg (s j + ·) (matmul_plain_apply _ rfl _ _ j)

/-- The maximum with zero of a whole array, entry by entry. -/
abbrev relu (x : Vec Ideal S8192x64 .f32) : Vec Ideal S8192x64 .f32 :=
  maximumf (F := Ideal) (φ := .f32) x (broadcastInDim Cert.ReferenceIdeal.S8192x64 ![] Cert.ReferenceIdeal.Facts₀.bcast_S_S8192x64 (constant (F := Ideal) Cert.ReferenceIdeal.S_ .f32 0x00000000#32))

theorem relu_apply (x : Vec Ideal S8192x64 .f32) (i : S8192x64.Idx) : relu x i = max (x i) 0 := by
  show max (x i) (broadcastInDim Cert.ReferenceIdeal.S8192x64 ![] Cert.ReferenceIdeal.Facts₀.bcast_S_S8192x64 (constant (F := Ideal) Cert.ReferenceIdeal.S_ .f32 0x00000000#32) i) = _
  rw [broadcastInDim_apply _ Cert.ReferenceIdeal.Facts₀.bcast_S_S8192x64 (constant (F := Ideal) Cert.ReferenceIdeal.S_ .f32 0x00000000#32) i (fun a => a.elim0) (fun a => a.elim0)]
  exact congrArg (max (x i)) Ideal.ofBits_zero_f32

theorem pay3_apply (s : Vec Ideal S1024x64 .f32) (j : S1024x64.Idx) : k5_pay3 s j = max (s j) 0 := by
  unfold k5_pay3
  exact congrArg (max (s j)) Ideal.ofBits_zero_f32

theorem idx : ∀ t : Fin cfg5.N, win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = t.val / 4 ∧ win5_2.index t (1 : Fin 2) = 0 :=
  (by decide +kernel : ∀ t : Fin grid5.N, _)

section Blocks

variable (V : (c : Dev nD) → (b : Ref sig .tc) → Buf (Elt Ideal) ((c : Thread nD τ).loc b))

theorem lblk_apply (c : Dev nD) (t : Fin cfg5.N) (y : S1024x2048.Idx) (i : S8192x8192.Idx)
    (h0 : (i 0).val = 1024 * (t.val / 4) + (y 0).val) (h1 : (i 1).val = 2048 * (t.val % 4) + (y 1).val) :
    V c main_arg5 i = ablk5 V c t y := by
  obtain ⟨e0, e1, -, -, -, -⟩ := idx t
  refine congrArg (V c main_arg5) (funext fun a => Fin.ext ?_)
  match a with
  | ⟨0, _⟩ => show (i 0).val = win5_0.index t (0 : Fin 2) * 1024 + 1 * (y 0).val; omega
  | ⟨1, _⟩ => show (i 1).val = win5_0.index t (1 : Fin 2) * 2048 + 1 * (y 1).val; omega

theorem rblk_apply (c : Dev nD) (t : Fin cfg5.N) (y : S2048x64.Idx) (i : S8192x64.Idx)
    (h0 : (i 0).val = 2048 * (t.val % 4) + (y 0).val) (h1 : (i 1).val = (y 1).val) :
    V c main_v4 i = bblk5 V c t y := by
  obtain ⟨-, -, e0, e1, -, -⟩ := idx t
  refine congrArg (V c main_v4) (funext fun a => Fin.ext ?_)
  match a with
  | ⟨0, _⟩ => show (i 0).val = win5_1.index t (0 : Fin 2) * 2048 + 1 * (y 0).val; omega
  | ⟨1, _⟩ => show (i 1).val = win5_1.index t (1 : Fin 2) * 64 + 1 * (y 1).val; omega

theorem oblk_emb (t : Fin cfg5.N) (j : S1024x64.Idx) :
    ((((cfg5.win 2).blk t).view.emb j : S8192x64.Idx) 0).val = 1024 * (t.val / 4) + (j 0).val
      ∧ ((((cfg5.win 2).blk t).view.emb j : S8192x64.Idx) 1).val = (j 1).val := by
  obtain ⟨-, -, -, -, e0, e1⟩ := idx t
  constructor
  · show win5_2.index t (0 : Fin 2) * 1024 + 1 * (j 0).val = _; omega
  · show win5_2.index t (1 : Fin 2) * 64 + 1 * (j 1).val = _; omega

/-- Row r is row r % 1024 of the block of the point that ends row block r / 1024's reduction. -/
theorem cover (i : S8192x64.Idx) : ∃ t : Fin cfg5.N, (cfg5.win 2).flush t = true ∧ i ∈ ((cfg5.win 2).blk t).view.set := by
  have hi : (i 0).val < 8192 := (i 0).isLt
  have ht : 4 * ((i 0).val / 1024) + 3 < cfg5.N := by rw [show cfg5.N = 32 from N_5]; omega
  obtain ⟨o0, o1⟩ := oblk_emb ⟨_, ht⟩ (ix2 ⟨(i 0).val % 1024, Nat.mod_lt _ (by decide)⟩ (i 1))
  exact ⟨⟨_, ht⟩, (flush5_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg5.N) (h3 : t.val % 4 = 3) (j : S1024x64.Idx) (i : S8192x64.Idx)
    (o0 : (i 0).val = 1024 * (t.val / 4) + (j 0).val) (o1 : (i 1).val = (j 1).val) :
    acc5 V c t.val t.isLt j = Host.dotGeneral (F := Ideal) (φ₁ := .f32) (φ₂ := .f32) Cert.ReferenceIdeal.dot_S8192x8192_S8192x64_S8192x64_1_0_0_1_n_n none (V c main_arg5) (V c main_v4) i := by
  refine Eq.trans ?_ (dotGeneral_plain_apply _ rfl _ _ i).symm
  refine acc_blocked (J := 4) (fun n h => acc5 V c n h) (fun n h j κ => ablk5 V c ⟨n, h⟩ (ix2 (j 0) κ) * bblk5 V c ⟨n, h⟩ (ix2 κ (j 1)))
    (fun n h hn j => by rw [acc5_reset V c ⟨n, h⟩ hn, pay2_apply, pay1_apply])
    (fun n h hn j => by rw [acc5_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val5

theorem value5 (V : (c : Dev nD) → (b : Ref sig .tc) → Buf (Elt Ideal) ((c : Thread nD τ).loc b)) (c : Dev nD) :
    (dat5 (F := Ideal) V c).arrAt 2 cfg5.N
      = (maximumf (F := Ideal) (φ := .f32) (Host.dotGeneral (F := Ideal) (φ₁ := .f32) (φ₂ := .f32) Cert.ReferenceIdeal.dot_S8192x8192_S8192x64_S8192x64_1_0_0_1_n_n none (V c main_arg5) (V c main_v4))
          (broadcastInDim Cert.ReferenceIdeal.S8192x64 ![] Cert.ReferenceIdeal.Facts₀.bcast_S_S8192x64 (constant (F := Ideal) Cert.ReferenceIdeal.S_ .f32 0x00000000#32)) : Vec Ideal S8192x64 .f32) :=
  (dat5 (F := Ideal) V c).arrAt_eq_of_cover 2 _ (fun t hf => by
    show (cfg5.win 2).cut (grid5.coords t) ((dat5 (F := Ideal) V c).after 2 t) = _
    rw [after5_2]
    funext j
    show k5_pay3 (acc5 V c t.val t.isLt) j = Val5.relu (Host.dotGeneral (F := Ideal) (φ₁ := .f32) (φ₂ := .f32) Cert.ReferenceIdeal.dot_S8192x8192_S8192x64_S8192x64_1_0_0_1_n_n none (V c main_arg5) (V c main_v4)) (((cfg5.win 2).blk t).view.emb j)
    rw [Val5.pay3_apply, Val5.relu_apply, Val5.acc_last_eq_prod V c t ((flush5_2 t).mp hf) j _ (Val5.oblk_emb t j).1 (Val5.oblk_emb t j).2]) Val5.cover

end Cert.KernelIdeal.Hand

end
-- ==== Proof.Val6.lean ====
import proofs.«145789_j53678501266189_1_alg».proof.Proof.Reg6
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val6

theorem pay1_apply (j : S8192x32.Idx) : k6_pay1 (F := Ideal) j = 0 := by
  unfold k6_pay1
  rw [shapeCast_self]
  exact Ideal.ofBits_zero_f32

/-- At the ideal values the step adds the exact product of the two operands. -/
theorem pay2_apply (a : Vec Ideal S8192x64 .f32) (b : Vec Ideal S64x32 .f32) (s : Vec Ideal S8192x32 .f32) (j : S8192x32.Idx) :
    k6_pay2 a b s j = s j + ∑ κ : Fin 64, a (ix2 (j 0) κ) * b (ix2 κ (j 1)) := by
  unfold k6_pay2
  simp only [shapeCast_self]
  exact congrArg (s j + ·) (matmul_plain_apply _ rfl _ _ j)

theorem idx : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

section Blocks

variable (V : (c : Dev nD) → (b : Ref sig .tc) → Buf (Elt Ideal) ((c : Thread nD τ).loc b))

/-- The only point's blocks are the whole arrays. -/
theorem lblk_apply (c : Dev nD) (t : Fin cfg6.N) (y : S8192x64.Idx) : V c main_v5 y = ablk6 V c t y := by
  obtain ⟨e0, e1, -, -, -, -⟩ := idx t
  refine congrArg (V c main_v5) (funext fun a => Fin.ext ?_)
  match a with
  | ⟨0, _⟩ => show (y 0).val = win6_0.index t (0 : Fin 2) * 8192 + 1 * (y 0).val; omega
  | ⟨1, _⟩ => show (y 1).val = win6_0.index t (1 : Fin 2) * 64 + 1 * (y 1).val; omega

theorem rblk_apply (c : Dev nD) (t : Fin cfg6.N) (y : S64x32.Idx) : V c main_arg7 y = bblk6 V c t y := by
  obtain ⟨-, -, e0, e1, -, -⟩ := idx t
  refine congrArg (V c main_arg7) (funext fun a => Fin.ext ?_)
  match a with
  | ⟨0, _⟩ => show (y 0).val = win6_1.index t (0 : Fin 2) * 64 + 1 * (y 0).val; omega
  | ⟨1, _⟩ => show (y 1).val = win6_1.index t (1 : Fin 2) * 32 + 1 * (y 1).val; omega

theorem oblk_emb (t : Fin cfg6.N) (j : S8192x32.Idx) : (((cfg6.win 2).blk t).view.emb j : S8192x32.Idx) = j := by
  obtain ⟨-, -, -, -, e0, e1⟩ := idx t
  refine funext fun a => Fin.ext ?_
  match a with
  | ⟨0, _⟩ => show win6_2.index t (0 : Fin 2) * 8192 + 1 * (j 0).val = (j 0).val; omega
  | ⟨1, _⟩ => show win6_2.index t (1 : Fin 2) * 32 + 1 * (j 1).val = (j 1).val; omega

theorem cover (i : S8192x32.Idx) : ∃ t : Fin cfg6.N, (cfg6.win 2).flush t = true ∧ i ∈ ((cfg6.win 2).blk t).view.set :=
  ⟨t6_0, flush6_2 t6_0, oblk_emb t6_0 i ▸ ((cfg6.win 2).blk t6_0).view.emb_mem_set i⟩

theorem flushed_eq (c : Dev nD) (t : Fin cfg6.N) :
    (dat6 (F := Ideal) V c).flushed 2 t = ((cfg6.win 2).blk t).view.read (Elt Ideal) (Host.dotGeneral (F := Ideal) (φ₁ := .f32) (φ₂ := .f32) Cert.ReferenceIdeal.dot_S8192x64_S64x32_S8192x32_1_0_0_1_n_n none (V c main_v5) (V c main_arg7)) := by
  show (cfg6.win 2).cut (grid6.coords t) ((dat6 (F := Ideal) V c).after 2 t) = _
  rw [after6_2]
  funext j
  show k6_pay2 (ablk6 V c t) (bblk6 V c t) (k6_pay1 (F := Ideal)) j = (Host.dotGeneral (F := Ideal) (φ₁ := .f32) (φ₂ := .f32) Cert.ReferenceIdeal.dot_S8192x64_S64x32_S8192x32_1_0_0_1_n_n none (V c main_v5) (V c main_arg7)) (((cfg6.win 2).blk t).view.emb j)
  rw [oblk_emb, pay2_apply, pay1_apply, zero_add]
  refine Eq.trans ?_ (dotGeneral_plain_apply _ rfl _ _ j).symm
  exact Finset.sum_congr rfl fun κ _ => congrArg₂ (· * ·) (lblk_apply V c t _).symm (rblk_apply V c t _).symm

end Blocks

end Val6

theorem value6 (V : (c : Dev nD) → (b : Ref sig .tc) → Buf (Elt Ideal) ((c : Thread nD τ).loc b)) (c : Dev nD) :
    (dat6 (F := Ideal) V c).arrAt 2 cfg6.N
      = (Host.dotGeneral (F := Ideal) (φ₁ := .f32) (φ₂ := .f32) Cert.ReferenceIdeal.dot_S8192x64_S64x32_S8192x32_1_0_0_1_n_n none (V c main_v5) (V c main_arg7) : Vec Ideal S8192x32 .f32) :=
  (dat6 (F := Ideal) V c).arrAt_eq_of_cover 2 _ (fun t _ => Val6.flushed_eq V c t) Val6.cover

end Cert.KernelIdeal.Hand

end
-- ==== Proof.Val7.lean ====
import proofs.«145789_j53678501266189_1_alg».proof.Proof.Reg7
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val7

theorem pay1_apply (j : S1024x32.Idx) : k7_pay1 (F := Ideal) j = 0 := by
  unfold k7_pay1
  rw [shapeCast_self]
  exact Ideal.ofBits_zero_f32

/-- At the ideal values one step adds the exact product of the two blocks. -/
theorem pay2_apply (a : Vec Ideal S1024x2048 .f32) (b : Vec Ideal S2048x32 .f32) (s : Vec Ideal S1024x32 .f32) (j : S1024x32.Idx) :
    k7_pay2 a b s j = s j + ∑ κ : Fin 2048, a (ix2 (j 0) κ) * b (ix2 κ (j 1)) := by
  unfold k7_pay2
  simp only [shapeCast_self]
  exact congrArg (s j + ·) (matmul_plain_apply _ rfl _ _ j)

theorem idx : ∀ t : Fin cfg7.N, win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = t.val / 4 ∧ win7_2.index t (1 : Fin 2) = 0 :=
  (by decide +kernel : ∀ t : Fin grid7.N, _)

section Blocks

variable (V : (c : Dev nD) → (b : Ref sig .tc) → Buf (Elt Ideal) ((c : Thread nD τ).loc b))

theorem lblk_apply (c : Dev nD) (t : Fin cfg7.N) (y : S1024x2048.Idx) (i : S8192x8192.Idx)
    (h0 : (i 0).val = 1024 * (t.val / 4) + (y 0).val) (h1 : (i 1).val = 2048 * (t.val % 4) + (y 1).val) :
    V c main_arg5 i = ablk7 V c t y := by
  obtain ⟨e0, e1, -, -, -, -⟩ := idx t
  refine congrArg (V c main_arg5) (funext fun a => Fin.ext ?_)
  match a with
  | ⟨0, _⟩ => show (i 0).val = win7_0.index t (0 : Fin 2) * 1024 + 1 * (y 0).val; omega
  | ⟨1, _⟩ => show (i 1).val = win7_0.index t (1 : Fin 2) * 2048 + 1 * (y 1).val; omega

theorem rblk_apply (c : Dev nD) (t : Fin cfg7.N) (y : S2048x32.Idx) (i : S8192x32.Idx)
    (h0 : (i 0).val = 2048 * (t.val % 4) + (y 0).val) (h1 : (i 1).val = (y 1).val) :
    V c main_v6 i = bblk7 V c t y := by
  obtain ⟨-, -, e0, e1, -, -⟩ := idx t
  refine congrArg (V c main_v6) (funext fun a => Fin.ext ?_)
  match a with
  | ⟨0, _⟩ => show (i 0).val = win7_1.index t (0 : Fin 2) * 2048 + 1 * (y 0).val; omega
  | ⟨1, _⟩ => show (i 1).val = win7_1.index t (1 : Fin 2) * 32 + 1 * (y 1).val; omega

theorem oblk_emb (t : Fin cfg7.N) (j : S1024x32.Idx) :
    ((((cfg7.win 2).blk t).view.emb j : S8192x32.Idx) 0).val = 1024 * (t.val / 4) + (j 0).val
      ∧ ((((cfg7.win 2).blk t).view.emb j : S8192x32.Idx) 1).val = (j 1).val := by
  obtain ⟨-, -, -, -, e0, e1⟩ := idx t
  constructor
  · show win7_2.index t (0 : Fin 2) * 1024 + 1 * (j 0).val = _; omega
  · show win7_2.index t (1 : Fin 2) * 32 + 1 * (j 1).val = _; omega

/-- Row r is row r % 1024 of the block of the point that ends row block r / 1024's reduction. -/
theorem cover (i : S8192x32.Idx) : ∃ t : Fin cfg7.N, (cfg7.win 2).flush t = true ∧ i ∈ ((cfg7.win 2).blk t).view.set := by
  have hi : (i 0).val < 8192 := (i 0).isLt
  have ht : 4 * ((i 0).val / 1024) + 3 < cfg7.N := by rw [show cfg7.N = 32 from N_7]; omega
  obtain ⟨o0, o1⟩ := oblk_emb ⟨_, ht⟩ (ix2 ⟨(i 0).val % 1024, Nat.mod_lt _ (by decide)⟩ (i 1))
  exact ⟨⟨_, ht⟩, (flush7_2 _).mpr (by show (4 * ((i 0).val / 1024) + 3) % 4 = 3; omega), mem_set_of_emb _ _ _ fun a => match a with
    | ⟨0, _⟩ => o0.trans (by show 1024 * ((4 * ((i 0).val / 1024) + 3) / 4) + (i 0).val % 1024 = (i 0).val; omega)
    | ⟨1, _⟩ => o1⟩

/-- The 4 partial sums over 2048 positions each that a row block's last point holds are the one sum over all 8192. -/
theorem acc_last_eq_prod (c : Dev nD) (t : Fin cfg7.N) (h3 : t.val % 4 = 3) (j : S1024x32.Idx) (i : S8192x32.Idx)
    (o0 : (i 0).val = 1024 * (t.val / 4) + (j 0).val) (o1 : (i 1).val = (j 1).val) :
    acc7 V c t.val t.isLt j = Host.dotGeneral (F := Ideal) (φ₁ := .f32) (φ₂ := .f32) Cert.ReferenceIdeal.dot_S8192x8192_S8192x32_S8192x32_1_0_0_1_n_n none (V c main_arg5) (V c main_v6) i := by
  refine Eq.trans ?_ (dotGeneral_plain_apply _ rfl _ _ i).symm
  refine acc_blocked (J := 4) (fun n h => acc7 V c n h) (fun n h j κ => ablk7 V c ⟨n, h⟩ (ix2 (j 0) κ) * bblk7 V c ⟨n, h⟩ (ix2 κ (j 1)))
    (fun n h hn j => by rw [acc7_reset V c ⟨n, h⟩ hn, pay2_apply, pay1_apply])
    (fun n h hn j => by rw [acc7_step V c ⟨n + 1, h⟩ hn, pay2_apply]; rfl)
    t.val t.isLt (by omega) rfl j _ fun s hs hn κ h => congrArg₂ (· * ·) ?_ ?_
  · exact lblk_apply V c ⟨_, hn⟩ _ _ (by show (i 0).val = 1024 * ((4 * (t.val / 4) + s) / 4) + (j 0).val; omega)
      (by show 2048 * s + κ.val = 2048 * ((4 * (t.val / 4) + s) % 4) + κ.val; omega)
  · exact rblk_apply V c ⟨_, hn⟩ _ _ (by show 2048 * s + κ.val = 2048 * ((4 * (t.val / 4) + s) % 4) + κ.val; omega) o1

end Blocks

end Val7

theorem value7 (V : (c : Dev nD) → (b : Ref sig .tc) → Buf (Elt Ideal) ((c : Thread nD τ).loc b)) (c : Dev nD) :
    (dat7 (F := Ideal) V c).arrAt 2 cfg7.N
      = (Host.dotGeneral (F := Ideal) (φ₁ := .f32) (φ₂ := .f32) Cert.ReferenceIdeal.dot_S8192x8192_S8192x32_S8192x32_1_0_0_1_n_n none (V c main_arg5) (V c main_v6) : Vec Ideal S8192x32 .f32) :=
  (dat7 (F := Ideal) V c).arrAt_eq_of_cover 2 _ (fun t hf => by
    show (cfg7.win 2).cut (grid7.coords t) ((dat7 (F := Ideal) V c).after 2 t) = _
    rw [after7_2]
    exact funext fun j => Val7.acc_last_eq_prod V c t ((flush7_2 t).mp hf) j _ (Val7.oblk_emb t j).1 (Val7.oblk_emb t j).2) Val7.cover

end Cert.KernelIdeal.Hand

end
-- ==== Proof.Val8.lean ====
import proofs.«145789_j53678501266189_1_alg».proof.Proof.Reg8
import proofs.«145789_j53678501266189_1_alg».proof.ReferenceIdeal
import proofs.«145789_j53678501266189_1_alg».proof.Proof.Gen.ReferenceIdeal
import proofs.«145789_j53678501266189_1_alg».proof.Proof.LibBlockedDot

noncomputable section

namespace Cert.KernelIdeal.Hand

open Cert.KernelIdeal Cert.KernelIdeal.Gen Cert.BlockedDot
open Idealize.ShloMosaic Idealize.ShloMosaic.TcCoe Idealize.ShloMosaic.ValueIdx
open Idealize.SL.Sem
open Idealize.ShloMosaic.Pipeline (Dat Cfg Window)

namespace Val8

theorem pay1_apply (j : S1024x2048.Idx) : k8_pay1 (F := Ideal) j = 0 := by
  unfold k8_pay1
  rw [shapeCast_self]
  exact Ideal.ofBits_zero_f32

/-- At the ideal values the step adds the exact product of the two blocks. -/
theorem pay2_apply (a : Vec Ideal S1024x32 .f32) (b : Vec Ideal S32x2048 .f32) (s : Vec Ideal S1024x2048 .f32) (j : S1024x2048.Idx) :
    k8_pay2 a b s j = s j + ∑ κ : Fin 32, a (ix2 (j 0) κ) * b (ix2 κ (j 1)) := by
  unfold k8_pay2
  simp only [shapeCast_self]
  exact congrArg (s j + ·) (matmul_plain_apply _ rfl _ _ j)

theorem idx : ∀ t : Fin cfg8.N, win8_0.index t (0 : Fin 2) = t.val / 4 ∧ win8_0.index t (1 : Fin 2) = 0
    ∧ win8_1.index t (0 : Fin 2) = 0 ∧ win8_1.index t (1 : Fin 2) = t.val % 4
    ∧ win8_2.index t (0 : Fin 2) = t.val / 4 ∧ win8_2.index t (1 : Fin 2) = t.val % 4 :=
  (by decide +kernel : ∀ t : Fin grid8.N, _)

theorem oblk_emb (t : Fin cfg8.N) (j : S1024x2048.Idx) :
    ((((cfg8.win 2).blk t).view.emb j : S8192x8192.Idx) 0).val = 1024 * (t.val / 4) + (j 0).val
      ∧ ((((cfg8.win 2).blk t).view.emb j : S8192x8192.Idx) 1).val = 2048 * (t.val % 4) + (j 1).val := by
  obtain ⟨-, -, -, -, e0, e1⟩ := idx t
  constructor
  · show win8_2.index t (0 : Fin 2) * 1024 + 1 * (j 0).val = _; omega
  · show win8_2.index t (1 : Fin 2) * 2048 + 1 * (j 1).val = _; omega

/-- Row r, column s is entry (r % 1024, s % 2048) of the block of point 4 (r / 1024) + s / 2048, and every point writes its block back. -/
theorem cover (i : S8192x8192.Idx) : ∃ t : Fin cfg8.N, (cfg8.win 2).flush t = true ∧ i ∈ ((cfg8.win 2).blk t).view.set := by
  have hi0 : (i 0).val < 8192 := (i 0).isLt
  have hi1 : (i 1).val < 8192 := (i 1).isLt
  have ht : 4 * ((i 0).val / 1024) + (i 1).val / 2048 < cfg8.N := by rw [show cfg8.N = 32 from N_8]; omega
  obtain ⟨o0, o1⟩ := oblk_emb ⟨_, ht⟩ (ix2 ⟨(i 0).val % 1024, Nat.mod_lt _ (by decide)⟩ ⟨(i 1).val % 2048, Nat.mod_lt _ (by decide)⟩)
  exact ⟨⟨_, ht⟩, flush8_2 _, mem_set_of_emb _ _ _ fun a => match a with
    | ⟨0, _⟩ => o0.trans (by show 1024 * ((4 * ((i 0).val / 1024) + (i 1).val / 2048) / 4) + (i 0).val % 1024 = (i 0).val; omega)
    | ⟨1, _⟩ => o1.trans (by show 2048 * ((4 * ((i 0).val / 1024) + (i 1).val / 2048) % 4) + (i 1).val % 2048 = (i 1).val; omega)⟩

section Blocks

variable (V : (c : Dev nD) → (b : Ref sig .tc) → Buf (Elt Ideal) ((c : Thread nD τ).loc b))

theorem lblk_apply (c : Dev nD) (t : Fin cfg8.N) (y : S1024x32.Idx) (i : S8192x32.Idx)
    (h0 : (i 0).val = 1024 * (t.val / 4) + (y 0).val) (h1 : (i 1).val = (y 1).val) :
    V c main_v3 i = ablk8 V c t y := by
  obtain ⟨e0, e1, -, -, -, -⟩ := idx t
  refine congrArg (V c main_v3) (funext fun a => Fin.ext ?_)
  match a with
  | ⟨0, _⟩ => show (i 0).val = win8_0.index t (0 : Fin 2) * 1024 + 1 * (y 0).val; omega
  | ⟨1, _⟩ => show (i 1).val = win8_0.index t (1 : Fin 2) * 32 + 1 * (y 1).val; omega

theorem rblk_apply (c : Dev nD) (t : Fin cfg8.N) (y : S32x2048.Idx) (i : S32x8192.Idx)
    (h0 : (i 0).val = (y 0).val) (h1 : (i 1).val = 2048 * (t.val % 4) + (y 1).val) :
    V c main_v8 i = bblk8 V c t y := by
  obtain ⟨-, -, e0, e1, -, -⟩ := idx t
  refine congrArg (V c main_v8) (funext fun a => Fin.ext ?_)
  match a with
  | ⟨0, _⟩ => show (i 0).val = win8_1.index t (0 : Fin 2) * 32 + 1 * (y 0).val; omega
  | ⟨1, _⟩ => show (i 1).val = win8_1.index t (1 : Fin 2) * 2048 + 1 * (y 1).val; omega

/-- The transposed array at (κ, s) is the array at (s, κ), so the point's one step stores the 32 products of two rows. -/
theorem out_eq_prod (c : Dev nD) (t : Fin cfg8.N) (z : Vec Ideal S8192x32 .f32)
    (hB : (V c main_v8 : Vec Ideal S32x8192 .f32) = transpose S32x8192 [1, 0] z transposes_S8192x32_S32x8192_1_0)
    (j : S1024x2048.Idx) (i : S8192x8192.Idx)
    (o0 : (i 0).val = 1024 * (t.val / 4) + (j 0).val) (o1 : (i 1).val = 2048 * (t.val % 4) + (j 1).val) :
    k8_pay2 (ablk8 V c t) (bblk8 V c t) (k8_pay1 (F := Ideal)) j = Host.dotGeneral (F := Ideal) (φ₁ := .f32) (φ₂ := .f32) Cert.ReferenceIdeal.dot_S8192x32_S8192x32_S8192x8192_1_1_0_0_n_n none (V c main_v3) z i := by
  rw [pay2_apply, pay1_apply, zero_add]
  refine Eq.trans ?_ (dotGeneral_transposedRhs_apply _ rfl _ _ i).symm
  refine Finset.sum_congr rfl fun κ _ => congrArg₂ (· * ·) (lblk_apply V c t _ _ o0 rfl).symm ?_
  refine (rblk_apply V c t _ (ix2 κ (i 1)) rfl o1).symm.trans ((congrFun hB _).trans ?_)
  exact transpose_apply _ z _ _ _ fun b => match b with
    | ⟨0, _⟩ => rfl
    | ⟨1, _⟩ => rfl

theorem flushed_eq (c : Dev nD) (z : Vec Ideal S8192x32 .f32)
    (hB : (V c main_v8 : Vec Ideal S32x8192 .f32) = transpose S32x8192 [1, 0] z transposes_S8192x32_S32x8192_1_0) (t : Fin cfg8.N) :
    (dat8 (F := Ideal) V c).flushed 2 t = ((cfg8.win 2).blk t).view.read (Elt Ideal) (Host.dotGeneral (F := Ideal) (φ₁ := .f32) (φ₂ := .f32) Cert.ReferenceIdeal.dot_S8192x32_S8192x32_S8192x8192_1_1_0_0_n_n none (V c main_v3) z) := by
  show (cfg8.win 2).cut (grid8.coords t) ((dat8 (F := Ideal) V c).after 2 t) = _
  rw [after8_2]
  exact funext fun j => out_eq_prod V c t z hB j _ (oblk_emb t j).1 (oblk_emb t j).2

end Blocks

end Val8

theorem value8 (V : (c : Dev nD) → (b : Ref sig .tc) → Buf (Elt Ideal) ((c : Thread nD τ).loc b)) (c : Dev nD)
    (zv : Vec Ideal S8192x32 .f32)
    (hB : (V c main_v8 : Vec Ideal S32x8192 .f32) = transpose S32x8192 [1, 0] zv transposes_S8192x32_S32x8192_1_0) :
    (dat8 (F := Ideal) V c).arrAt 2 cfg8.N
      = (Host.dotGeneral (F := Ideal) (φ₁ := .f32) (φ₂ := .f32) Cert.ReferenceIdeal.dot_S8192x32_S8192x32_S8192x8192_1_1_0_0_n_n none (V c main_v3) zv : Vec Ideal S8192x8192 .f32) :=
  (dat8 (F := Ideal) V c).arrAt_eq_of_cover 2 _ (fun t _ => Val8.flushed_eq V c zv hB t) Val8.cover

end Cert.KernelIdeal.Hand

end
-- ==== Proof.Chain.lean ====
import proofs.«145789_j53678501266189_1_alg».proof.Proof.Run
import proofs.«145789_j53678501266189_1_alg».proof.Proof.Val0
import proofs.«145789_j53678501266189_1_alg».proof.Proof.Val1
import proofs.«145789_j53678501266189_1_alg».proof.Proof.Val2
import proofs.«145789_j53678501266189_1_alg».proof.Proof.Val3
import proofs.«145789_j53678501266189_1_alg».proof.Proof.Val4
import proofs.«145789_j53678501266189_1_alg».proof.Proof.Val5
import proofs.«145789_j53678501266189_1_alg».proof.Proof.Val6
import proofs.«145789_j53678501266189_1_alg».proof.Proof.Val7
import proofs.«145789_j53678501266189_1_alg».proof.Proof.Val8
import proofs.«145789_j53678501266189_1_alg».proof.Proof.Gen.ReferenceIdeal
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- A buffer an item does not write keeps its contents; the one it writes holds the item's output. -/
theorem step1 (c : Dev nD) (r : Ref sig .tc) (h : r ∉ ([main_v0] : List (Ref sig .tc))) : W1 m c r = W0 m c r := by
  unfold W1; exact Function.update_of_ne (StableHlo.devRef_ne_of_ne (List.ne_of_not_mem_cons h)) _ _
theorem self1 (c : Dev nD) : W1 m c main_v0 = o0 m c := by
  unfold W1; rw [Function.update_self]
theorem step2 (c : Dev nD) (r : Ref sig .tc) (h : r ∉ ([main_v1] : List (Ref sig .tc))) : W2 m c r = W1 m c r := by
  unfold W2; exact Function.update_of_ne (StableHlo.devRef_ne_of_ne (List.ne_of_not_mem_cons h)) _ _
theorem self2 (c : Dev nD) : W2 m c main_v1 = o1 m c := by
  unfold W2; rw [Function.update_self]
theorem step3 (c : Dev nD) (r : Ref sig .tc) (h : r ∉ ([main_v2] : List (Ref sig .tc))) : W3 m c r = W2 m c r := by
  unfold W3; exact Function.update_of_ne (StableHlo.devRef_ne_of_ne (List.ne_of_not_mem_cons h)) _ _
theorem self3 (c : Dev nD) : W3 m c main_v2 = o2 m c := by
  unfold W3; rw [Function.update_self]
theorem step4 (c : Dev nD) (r : Ref sig .tc) (h : r ∉ ([main_v3] : List (Ref sig .tc))) : W4 m c r = W3 m c r := by
  unfold W4; exact Function.update_of_ne (StableHlo.devRef_ne_of_ne (List.ne_of_not_mem_cons h)) _ _
theorem self4 (c : Dev nD) : W4 m c main_v3 = o3 m c := by
  unfold W4; rw [Function.update_self]
theorem step5 (c : Dev nD) (r : Ref sig .tc) (h : r ∉ ([main_v4] : List (Ref sig .tc))) : W5 m c r = W4 m c r := by
  unfold W5; exact Function.update_of_ne (StableHlo.devRef_ne_of_ne (List.ne_of_not_mem_cons h)) _ _
theorem self5 (c : Dev nD) : W5 m c main_v4 = o4 m c := by
  unfold W5; rw [Function.update_self]
theorem step6 (c : Dev nD) (r : Ref sig .tc) (h : r ∉ ([main_v5] : List (Ref sig .tc))) : W6 m c r = W5 m c r := by
  unfold W6; exact Function.update_of_ne (StableHlo.devRef_ne_of_ne (List.ne_of_not_mem_cons h)) _ _
theorem self6 (c : Dev nD) : W6 m c main_v5 = o5 m c := by
  unfold W6; rw [Function.update_self]
theorem step7 (c : Dev nD) (r : Ref sig .tc) (h : r ∉ ([main_v6] : List (Ref sig .tc))) : W7 m c r = W6 m c r := by
  unfold W7; exact Function.update_of_ne (StableHlo.devRef_ne_of_ne (List.ne_of_not_mem_cons h)) _ _
theorem self7 (c : Dev nD) : W7 m c main_v6 = o6 m c := by
  unfold W7; rw [Function.update_self]
theorem step8 (c : Dev nD) (r : Ref sig .tc) (h : r ∉ ([main_v7] : List (Ref sig .tc))) : W8 m c r = W7 m c r := by
  unfold W8; exact Function.update_of_ne (StableHlo.devRef_ne_of_ne (List.ne_of_not_mem_cons h)) _ _
theorem self8 (c : Dev nD) : W8 m c main_v7 = o7 m c := by
  unfold W8; rw [Function.update_self]
theorem step10 (c : Dev nD) (r : Ref sig .tc) (h : r ∉ ([main_v9] : List (Ref sig .tc))) : W10 m c r = W9 m c r := by
  unfold W10; exact Function.update_of_ne (StableHlo.devRef_ne_of_ne (List.ne_of_not_mem_cons h)) _ _
theorem self10 (c : Dev nD) : W10 m c main_v9 = o8 m c := by
  unfold W10; rw [Function.update_self]
theorem step9 (c : Dev nD) (r : Ref sig .tc) (h : r ∉ hostOps8_W) : W9 m c r = W8 m c r :=
  StableHlo.after_of_writes_sub hostOps8 _ hostOps8_writes h
theorem step11 (c : Dev nD) (r : Ref sig .tc) (h : r ∉ hostOps9_W) : W11 m c r = W10 m c r :=
  StableHlo.after_of_writes_sub hostOps9 _ hostOps9_writes h

theorem W0_apply (c : Dev nD) (r : Ref sig .tc) : W0 m c r = m ((c.tc : Thread nD τ).loc r) := rfl

abbrev dotX (x : Vec Ideal S8192x8192 .f32) (w : Vec Ideal S8192x64 .f32) : Vec Ideal S8192x64 .f32 :=
  Host.dotGeneral (F := Ideal) (φ₁ := .f32) (φ₂ := .f32) Cert.ReferenceIdeal.dot_S8192x8192_S8192x64_S8192x64_1_0_0_1_n_n none x w
abbrev relu64 (x : Vec Ideal S8192x64 .f32) : Vec Ideal S8192x64 .f32 :=
  maximumf (F := Ideal) (φ := .f32) x (broadcastInDim Cert.ReferenceIdeal.S8192x64 ![] Cert.ReferenceIdeal.Facts₀.bcast_S_S8192x64 (constant (F := Ideal) Cert.ReferenceIdeal.S_ .f32 0x00000000#32))
abbrev dotH (x : Vec Ideal S8192x64 .f32) (w : Vec Ideal S64x32 .f32) : Vec Ideal S8192x32 .f32 :=
  Host.dotGeneral (F := Ideal) (φ₁ := .f32) (φ₂ := .f32) Cert.ReferenceIdeal.dot_S8192x64_S64x32_S8192x32_1_0_0_1_n_n none x w
abbrev dotA (x : Vec Ideal S8192x8192 .f32) (w : Vec Ideal S8192x32 .f32) : Vec Ideal S8192x32 .f32 :=
  Host.dotGeneral (F := Ideal) (φ₁ := .f32) (φ₂ := .f32) Cert.ReferenceIdeal.dot_S8192x8192_S8192x32_S8192x32_1_0_0_1_n_n none x w
abbrev dotD (x : Vec Ideal S8192x32 .f32) (w : Vec Ideal S8192x32 .f32) : Vec Ideal S8192x8192 .f32 :=
  Host.dotGeneral (F := Ideal) (φ₁ := .f32) (φ₂ := .f32) Cert.ReferenceIdeal.dot_S8192x32_S8192x32_S8192x8192_1_1_0_0_n_n none x w

/-- One branch: adj · ((relu (adj · (x · w1))) · w2). -/
abbrev branch (x adj : Vec Ideal S8192x8192 .f32) (w1 : Vec Ideal S8192x64 .f32) (w2 : Vec Ideal S64x32 .f32) : Vec Ideal S8192x32 .f32 :=
  dotA adj (dotH (relu64 (dotX adj (dotX x w1))) w2)

/-- Each region's output as one term of the launch memory: its value lemma at entry arrays that are arguments or earlier outputs. -/
theorem o0_eq (c : Dev nD) : o0 m c = dotX (m ((c.tc : Thread nD τ).loc main_arg0)) (m ((c.tc : Thread nD τ).loc main_arg2)) :=
  value0 (U0 m) c
theorem o1_eq (c : Dev nD) : o1 m c = relu64 (dotX (m ((c.tc : Thread nD τ).loc main_arg1)) (dotX (m ((c.tc : Thread nD τ).loc main_arg0)) (m ((c.tc : Thread nD τ).loc main_arg2)))) := by
  refine (value1 (U1 m) c).trans ?_
  rw [show U1 m c main_arg1 = m ((c.tc : Thread nD τ).loc main_arg1) from step1 m c main_arg1 (by decide),
    show U1 m c main_v0 = _ from (self1 m c).trans (o0_eq m c)]
theorem o2_eq (c : Dev nD) : o2 m c = dotH (relu64 (dotX (m ((c.tc : Thread nD τ).loc main_arg1)) (dotX (m ((c.tc : Thread nD τ).loc main_arg0)) (m ((c.tc : Thread nD τ).loc main_arg2))))) (m ((c.tc : Thread nD τ).loc main_arg3)) := by
  refine (value2 (U2 m) c).trans ?_
  rw [show U2 m c main_v1 = _ from (self2 m c).trans (o1_eq m c),
    show U2 m c main_arg3 = m ((c.tc : Thread nD τ).loc main_arg3) from (step2 m c main_arg3 (by decide)).trans (step1 m c main_arg3 (by decide))]
theorem o3_eq (c : Dev nD) : o3 m c = branch (m ((c.tc : Thread nD τ).loc main_arg0)) (m ((c.tc : Thread nD τ).loc main_arg1)) (m ((c.tc : Thread nD τ).loc main_arg2)) (m ((c.tc : Thread nD τ).loc main_arg3)) := by
  refine (value3 (U3 m) c).trans ?_
  rw [show U3 m c main_v2 = _ from (self3 m c).trans (o2_eq m c),
    show U3 m c main_arg1 = m ((c.tc : Thread nD τ).loc main_arg1) from (step3 m c main_arg1 (by decide)).trans ((step2 m c main_arg1 (by decide)).trans (step1 m c main_arg1 (by decide)))]
theorem o4_eq (c : Dev nD) : o4 m c = dotX (m ((c.tc : Thread nD τ).loc main_arg4)) (m ((c.tc : Thread nD τ).loc main_arg6)) := by
  refine (value4 (U4 m) c).trans ?_
  rw [show U4 m c main_arg4 = m ((c.tc : Thread nD τ).loc main_arg4) from (step4 m c main_arg4 (by decide)).trans ((step3 m c main_arg4 (by decide)).trans ((step2 m c main_arg4 (by decide)).trans (step1 m c main_arg4 (by decide)))),
    show U4 m c main_arg6 = m ((c.tc : Thread nD τ).loc main_arg6) from (step4 m c main_arg6 (by decide)).trans ((step3 m c main_arg6 (by decide)).trans ((step2 m c main_arg6 (by decide)).trans (step1 m c main_arg6 (by decide))))]
theorem o5_eq (c : Dev nD) : o5 m c = relu64 (dotX (m ((c.tc : Thread nD τ).loc main_arg5)) (dotX (m ((c.tc : Thread nD τ).loc main_arg4)) (m ((c.tc : Thread nD τ).loc main_arg6)))) := by
  refine (value5 (U5 m) c).trans ?_
  rw [show U5 m c main_v4 = _ from (self5 m c).trans (o4_eq m c),
    show U5 m c main_arg5 = m ((c.tc : Thread nD τ).loc main_arg5) from (step5 m c main_arg5 (by decide)).trans ((step4 m c main_arg5 (by decide)).trans ((step3 m c main_arg5 (by decide)).trans ((step2 m c main_arg5 (by decide)).trans (step1 m c main_arg5 (by decide)))))]
theorem o6_eq (c : Dev nD) : o6 m c = dotH (relu64 (dotX (m ((c.tc : Thread nD τ).loc main_arg5)) (dotX (m ((c.tc : Thread nD τ).loc main_arg4)) (m ((c.tc : Thread nD τ).loc main_arg6))))) (m ((c.tc : Thread nD τ).loc main_arg7)) := by
  refine (value6 (U6 m) c).trans ?_
  rw [show U6 m c main_v5 = _ from (self6 m c).trans (o5_eq m c),
    show U6 m c main_arg7 = m ((c.tc : Thread nD τ).loc main_arg7) from (step6 m c main_arg7 (by decide)).trans ((step5 m c main_arg7 (by decide)).trans ((step4 m c main_arg7 (by decide)).trans ((step3 m c main_arg7 (by decide)).trans ((step2 m c main_arg7 (by decide)).trans (step1 m c main_arg7 (by decide))))))]
theorem o7_eq (c : Dev nD) : o7 m c = branch (m ((c.tc : Thread nD τ).loc main_arg4)) (m ((c.tc : Thread nD τ).loc main_arg5)) (m ((c.tc : Thread nD τ).loc main_arg6)) (m ((c.tc : Thread nD τ).loc main_arg7)) := by
  refine (value7 (U7 m) c).trans ?_
  rw [show U7 m c main_v6 = _ from (self7 m c).trans (o6_eq m c),
    show U7 m c main_arg5 = m ((c.tc : Thread nD τ).loc main_arg5) from (step7 m c main_arg5 (by decide)).trans ((step6 m c main_arg5 (by decide)).trans ((step5 m c main_arg5 (by decide)).trans ((step4 m c main_arg5 (by decide)).trans ((step3 m c main_arg5 (by decide)).trans ((step2 m c main_arg5 (by decide)).trans (step1 m c main_arg5 (by decide)))))))]

theorem W9_v8 (c : Dev nD) : W9 m c main_v8 = transpose S32x8192 [1, 0] (W8 m c main_v7) transposes_S8192x32_S32x8192_1_0 := by
  show StableHlo.after hostOps8 (W8 m c) (Proc.devRef .tc main_v8) = _
  after_results <;> rfl

theorem o8_eq (c : Dev nD) : o8 m c = dotD (branch (m ((c.tc : Thread nD τ).loc main_arg0)) (m ((c.tc : Thread nD τ).loc main_arg1)) (m ((c.tc : Thread nD τ).loc main_arg2)) (m ((c.tc : Thread nD τ).loc main_arg3)))
      (branch (m ((c.tc : Thread nD τ).loc main_arg4)) (m ((c.tc : Thread nD τ).loc main_arg5)) (m ((c.tc : Thread nD τ).loc main_arg6)) (m ((c.tc : Thread nD τ).loc main_arg7))) := by
  refine (value8 (U9 m) c (W8 m c main_v7) (W9_v8 m c)).trans ?_
  rw [show U9 m c main_v3 = _ from (step9 m c main_v3 (by decide)).trans ((step8 m c main_v3 (by decide)).trans ((step7 m c main_v3 (by decide)).trans ((step6 m c main_v3 (by decide)).trans ((step5 m c main_v3 (by decide)).trans ((self4 m c).trans (o3_eq m c)))))),
    show W8 m c main_v7 = _ from (self8 m c).trans (o7_eq m c)]

/-- The result: the two branches' product over their shared axis, reshaped to one axis. -/
theorem result_eq (c : Dev nD) : W11 m c main_v10 = shapeCast _ (dotD (branch (m ((c.tc : Thread nD τ).loc main_arg0)) (m ((c.tc : Thread nD τ).loc main_arg1)) (m ((c.tc : Thread nD τ).loc main_arg2)) (m ((c.tc : Thread nD τ).loc main_arg3)))
      (branch (m ((c.tc : Thread nD τ).loc main_arg4)) (m ((c.tc : Thread nD τ).loc main_arg5)) (m ((c.tc : Thread nD τ).loc main_arg6)) (m ((c.tc : Thread nD τ).loc main_arg7)))) shapeCasts_S8192x8192_S67108864 := by
  rw [← o8_eq m c, ← self10 m c]
  show StableHlo.after hostOps9 (W10 m c) (Proc.devRef .tc main_v10) = _
  after_results <;> rfl

end Cert.KernelIdeal.Hand

end
-- ==== Proof.lean ====
/-
  Two graph-convolution branches adj · (relu (adj · (x · w1)) · w2) and their product over the shared axis, as nine tiled matrix
  products. Over the extended reals a tiled product is the whole one (a sum regrouped: associativity, commutativity, 0 + x = x),
  so kernel and reference end with equal results; each program runs to the end with its arguments unchanged.
-/
import proofs.«145789_j53678501266189_1_alg».proof.Defs
import proofs.«145789_j53678501266189_1_alg».proof.Proof.Gen.Kernel
import proofs.«145789_j53678501266189_1_alg».proof.Proof.Gen.KernelIdeal
import proofs.«145789_j53678501266189_1_alg».proof.Proof.Gen.ReferenceIdeal
import proofs.«145789_j53678501266189_1_alg».proof.Proof.Gen.Pre_finite_inputs
import proofs.«145789_j53678501266189_1_alg».proof.Proof.Gen.ReferenceIdeal.Run
import proofs.«145789_j53678501266189_1_alg».proof.Proof.Bits.Run
import proofs.«145789_j53678501266189_1_alg».proof.Proof.Run
import proofs.«145789_j53678501266189_1_alg».proof.Proof.Chain

noncomputable section

namespace Cert.Proof

open Idealize.ShloMosaic Idealize.ShloMosaic.TcCoe Idealize.SL.Sem

/-- The word-level kernel's run, the result dropped. -/
theorem frame_k : Cert.frame_Kernel := fun m ρ _ =>
  (θ_run Cert.Kernel.defs _ _).mono (fun _ h c => (h c).2) (Cert.Kernel.Hand.run_main (F := Bits) m ρ)

/-- The idealized kernel's run, the result dropped. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the same term of the arguments: the chain of the nine regions' values is the reference's term. -/
theorem algebraic : Cert.algebraic_KernelIdeal_ReferenceIdeal := by
  intro m ρ m' ρ' _ hagree
  refine ⟨fun c => Cert.KernelIdeal.Hand.W11 m c Cert.KernelIdeal.main_v10, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
